-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x8 : Shape := ⟨2, ![800000, 8]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg2 : IVec S800000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S800000 32 := broadcastInDim S800000 ![] bcast_S_S800000 main_c_6
  let main_v20 : IVec S800000 1 := cmpi .sge main_arg2 main_v19
  let main_c_7 : IVec S_ 32 := constantI S_ 32 50000#32
  let main_v21 : IVec S800000 32 := broadcastInDim S800000 ![] bcast_S_S800000 main_c_7
  let main_v22 : IVec S800000 1 := cmpi .slt main_arg2 main_v21
  let main_v23 : IVec S800000 1 := andi main_v20 main_v22
  let main_c_8 : IVec S_ 1 := constantI S_ 1 1#1
  let main_v24 : IVec S_ 1 := (fun x v => Host.reduce IntOp.andi x v reducesTo_S800000_S_d0 h_S_) main_v23 main_c_8
  let main_v25 : IVec S_ 1 := andi main_v18 main_v24
  main_v25

def fn {F : FTy → Type} [FloatOps F] (main_arg0 : FVec F S50000x128 .f32) (main_arg1 : FVec F S800000x8 .f32) (main_arg2 : IVec S800000 32) (main_arg3 : IVec S800000 32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x8 .f32 := Host.absf main_arg1
  let main_cst_0 : FVec F S_ .f32 := constant S_ .f32 0x7F800000#32
  let main_v5 : FVec F S800000x8 .f32 := broadcastInDim S800000x8 ![] bcast_S_S800000x8 main_cst_0
  let main_v6 : IVec S800000x8 1 := cmpf .olt main_v4 main_v5
  let main_c_1 : IVec S_ 1 := constantI S_ 1 1#1
  let main_v7 : IVec S_ 1 := (fun x v => Host.reduce IntOp.andi x v reducesTo_S800000x8_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_v13 main_v16
-- ==== Kernel.lean ====
abbrev S50000x128 : Shape := ⟨2, ![50000, 128]⟩
abbrev S800000x8 : Shape := ⟨2, ![800000, 8]⟩
abbrev S800000 : Shape := ⟨1, ![800000]⟩
abbrev S128x128 : Shape := ⟨2, ![128, 128]⟩
abbrev S128 : Shape := ⟨1, ![128]⟩
abbrev S_ : Shape := ⟨0, ![]⟩
abbrev S51200x128 : Shape := ⟨2, ![51200, 128]⟩
abbrev S800768 : Shape := ⟨1, ![800768]⟩
abbrev S800768x1 : Shape := ⟨2, ![800768, 1]⟩
abbrev S1x800768 : Shape := ⟨2, ![1, 800768]⟩
abbrev S2048 : Shape := ⟨1, ![2048]⟩
abbrev S1x2048 : Shape := ⟨2, ![1, 2048]⟩
abbrev S2048x1 : Shape := ⟨2, ![2048, 1]⟩
abbrev S800768x128 : Shape := ⟨2, ![800768, 128]⟩
abbrev S2048x128 : Shape := ⟨2, ![2048, 128]⟩
abbrev S2048x2048 : Shape := ⟨2, ![2048, 2048]⟩
abbrev S1x128 : Shape := ⟨2, ![1, 128]⟩

abbrev nBuf : Space → Nat
  | .hbm => 25
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000x8, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S_, .f32⟩
  | .hbm, ⟨8, _⟩ => ⟨S51200x128, .f32⟩
  | .hbm, ⟨9, _⟩ => ⟨S51200x128, .bf16⟩
  | .hbm, ⟨10, _⟩ => ⟨S_, .i32⟩
  | .hbm, ⟨11, _⟩ => ⟨S_, .i32⟩
  | .hbm, ⟨12, _⟩ => ⟨S800768, .i32⟩
  | .hbm, ⟨13, _⟩ => ⟨S800768x1, .i32⟩
  | .hbm, ⟨14, _⟩ => ⟨S_, .i32⟩
  | .hbm, ⟨15, _⟩ => ⟨S_, .i32⟩
  | .hbm, ⟨16, _⟩ => ⟨S800768, .i32⟩
  | .hbm, ⟨17, _⟩ => ⟨S1x800768, .i32⟩
  | .hbm, ⟨18, _⟩ => ⟨S2048, .i32⟩
  | .hbm, ⟨19, _⟩ => ⟨S1x2048, .i32⟩
  | .hbm, ⟨20, _⟩ => ⟨S2048, .i32⟩
  | .hbm, ⟨21, _⟩ => ⟨S2048x1, .i32⟩
  | .hbm, ⟨22, _⟩ => ⟨S800768x128, .f32⟩
  | .hbm, ⟨23, _⟩ => ⟨S51200x128, .f32⟩
  | .hbm, ⟨24, _⟩ => ⟨S50000x128, .f32⟩
  | .local _ .vmem, ⟨0, _⟩ => ⟨S2048x1, .i32⟩
  | .local _ .vmem, ⟨1, _⟩ => ⟨S2048x1, .i32⟩
  | .local _ .vmem, ⟨2, _⟩ => ⟨S2048x128, .bf16⟩
  | .local _ .vmem, ⟨3, _⟩ => ⟨S2048x128, .bf16⟩
  | .local _ .vmem, ⟨4, _⟩ => ⟨S1x2048, .i32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x2048, .i32⟩
  | .local _ .vmem, ⟨9, _⟩ => ⟨S1x2048, .i32⟩
  | .local _ .vmem, ⟨10, _⟩ => ⟨S2048x128, .f32⟩
  | .local _ .vmem, ⟨11, _⟩ => ⟨S2048x128, .f32⟩
  | .local _ .vmem, ⟨12, _⟩ => ⟨S128x128, .f32⟩
  | .local _ .vmem, ⟨13, _⟩ => ⟨S128, .f32⟩
  | .local _ .vmem, ⟨14, _⟩ => ⟨S2048x1, .i32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![391, 25], ![false, false]⟩

def k0_cond2 (i : grid0.Coords) : BitVec 1 :=
  let arg1 : BitVec 32 := BitVec.ofNat 32 (i 1).val
  let c24_i32 : BitVec 32 := 24#32
  let v24 : BitVec 1 := Scalar.cmpi .eq arg1 c24_i32
  let v25 : BitVec 32 := Scalar.extui v24
  let c0_i32_10 : BitVec 32 := 0#32
  let v26 : BitVec 1 := Scalar.cmpi .ne v25 c0_i32_10
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![25, 391], ![false, false]⟩

def k1_cond2 (i : grid1.Coords) : BitVec 1 :=
  let arg1 : BitVec 32 := BitVec.ofNat 32 (i 1).val
  let c390_i32 : BitVec 32 := 390#32
  let v25 : BitVec 1 := Scalar.cmpi .eq arg1 c390_i32
  let v26 : BitVec 32 := Scalar.extui v25
  let c0_i32_10 : BitVec 32 := 0#32
  let v27 : BitVec 1 := Scalar.cmpi .ne v26 c0_i32_10
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S2048x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  pads_S50000x128_S51200x128_012000_000 : S50000x128.Pads (![0, 0] : Fin 2 → Nat) ![1200, 0] ![0, 0] S51200x128
  h_S_ : 0 < S_.numel
  bitsLt_bf16_f32 : FTy.bits .bf16 < FTy.bits .f32
  pads_S800000_S800768_07680 : S800000.Pads (![0] : Fin 1 → Nat) ![768] ![0] S800768
  shapeCasts_S800768_S800768x1 : S800768.ShapeCasts S800768x1
  shapeCasts_S800768_S1x800768 : S800768.ShapeCasts S1x800768
  shapeCasts_S2048_S1x2048 : S2048.ShapeCasts S1x2048
  shapeCasts_S2048_S2048x1 : S2048.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  natLt_1_32 : 1 < 32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  slices_S51200x128_S50000x128_0_0 : S51200x128.Slices ![0, 0] S50000x128
  dot_S2048x2048_S2048x128_S2048x128_1_0_0_1_n_n_wf : DotDims.WF S2048x2048 S2048x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S800768x1.size a
  hwx0_0 : ∀ i : grid0.Coords, EltTy.bits .i32 = 32 ∨ (Rect.block (s := S800768x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S51200x128.size a
  hwx0_1 : ∀ i : grid0.Coords, EltTy.bits .bf16 = 32 ∨ (Rect.block (s := S51200x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .i32 = 32 ∨ (Rect.block (s := S1x2048) S1x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S800768x128.size a
  hwx0_3 : ∀ i : grid0.Coords, EltTy.bits .f32 = 32 ∨ (Rect.block (s := S800768x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x800768.size a
  hwx1_0 : ∀ i : grid1.Coords, EltTy.bits .i32 = 32 ∨ (Rect.block (s := S1x800768) S1x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S800768x128.size a
  hwx1_1 : ∀ i : grid1.Coords, EltTy.bits .f32 = 32 ∨ (Rect.block (s := S800768x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S2048x1.size a
  hwx1_4 : ∀ i : grid1.Coords, EltTy.bits .i32 = 32 ∨ (Rect.block (s := S2048x1) S2048x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S51200x128.size a
  hwx1_5 : ∀ i : grid1.Coords, EltTy.bits .f32 = 32 ∨ (Rect.block (s := S51200x128) S2048x128.size (cc1_transform_5 i) (hinb1_5 i)).WholeWords (EltTy.packing .f32)

variable [Facts₀]

def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v3) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v5) S1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S2048x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S2048x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S50000x128 : Shape := ⟨2, ![50000, 128]⟩
abbrev S800000x8 : Shape := ⟨2, ![800000, 8]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 23
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x8, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S_, .f32⟩
  | .hbm, ⟨16, _⟩ => ⟨S50000x128, .f32⟩
  | .hbm, ⟨17, _⟩ => ⟨S800000x1, .i32⟩
  | .hbm, ⟨18, _⟩ => ⟨S50000x128, .f32⟩
  | .hbm, ⟨19, _⟩ => ⟨S50000x128, .f32⟩
  | .hbm, ⟨20, _⟩ => ⟨S1x128, .f32⟩
  | .hbm, ⟨21, _⟩ => ⟨S50000x128, .f32⟩
  | .hbm, ⟨22, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_1_0_0_n_n_wf : DotDims.WF S50000x128 S128x128 S50000x128 [1] [1] [0] [0] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf

class Facts : Prop extends Facts₀ where

variable [Facts]
-- ==== Proof.Ref.Imports.lean ====
import proofs.«407643_j28157805593244_2_alg».proof.Proof.Gen.ReferenceIdeal.Run
import proofs.«407643_j28157805593244_2_alg».proof.Proof.Gen.ReferenceIdeal.Read
-- ==== Proof.Val.Spec.lean ====
/- The common value: each edge carries its source's feature row, each node sums the rows of the edges that end at it, and a linear layer follows; beside it the same two stages over the padded arrays. -/
import Idealize.ShloMosaic.Lib.ValueIdx

noncomputable section

open scoped BigOperators

namespace Cert.Spec

open Idealize.ShloMosaic Idealize.ShloMosaic.ValueIdx

/-- The node an edge starts from: its source word, clamped into the table. -/
def srcRow (src : (⟨1, ![800000]⟩ : Shape).Idx → BitVec 32) (e : Fin 800000) : Fin 50000 :=
  ⟨min (src (ix1 e)).toNat 49999, by omega⟩

def msg (nf : (⟨2, ![50000, 128]⟩ : Shape).Idx → EReal) (src : (⟨1, ![800000]⟩ : Shape).Idx → BitVec 32)
    (e : Fin 800000) (f : Fin 128) : EReal :=
  nf (ix2 (srcRow src e) f)

/-- The sum, over the edges whose destination word is node `v`, of the rows they carry. -/
def agg (nf : (⟨2, ![50000, 128]⟩ : Shape).Idx → EReal) (src dst : (⟨1, ![800000]⟩ : Shape).Idx → BitVec 32)
    (v : Fin 50000) (f : Fin 128) : EReal :=
  ∑ e : Fin 800000, if dst (ix1 e) = BitVec.ofNat 32 v.val then msg nf src e f else 0

def out (nf : (⟨2, ![50000, 128]⟩ : Shape).Idx → EReal) (src dst : (⟨1, ![800000]⟩ : Shape).Idx → BitVec 32)
    (W : (⟨2, ![128, 128]⟩ : Shape).Idx → EReal) (b : (⟨1, ![128]⟩ : Shape).Idx → EReal) (v : Fin 50000) (o : Fin 128) : EReal :=
  (∑ f : Fin 128, agg nf src dst v f * W (ix2 o f)) + b (ix1 o)

/-- The result: the linear layer on the aggregated rows. -/
def G (nf : (⟨2, ![50000, 128]⟩ : Shape).Idx → EReal) (src dst : (⟨1, ![800000]⟩ : Shape).Idx → BitVec 32)
    (W : (⟨2, ![128, 128]⟩ : Shape).Idx → EReal) (b : (⟨1, ![128]⟩ : Shape).Idx → EReal) :
    (⟨2, ![50000, 128]⟩ : Shape).Idx → EReal :=
  fun i => out nf src dst W b ⟨(i 0).val, idx2_lt0 i⟩ ⟨(i 1).val, idx2_lt1 i⟩

theorem G_apply (nf : (⟨2, ![50000, 128]⟩ : Shape).Idx → EReal) (src dst : (⟨1, ![800000]⟩ : Shape).Idx → BitVec 32)
    (W : (⟨2, ![128, 128]⟩ : Shape).Idx → EReal) (b : (⟨1, ![128]⟩ : Shape).Idx → EReal) (v : Fin 50000) (o : Fin 128) :
    G nf src dst W b (ix2 v o) = out nf src dst W b v o := rfl

/-- The padded edges' rows: the row of the padded table an edge's source word names, zero when it names none. -/
def M0 (srcp : (⟨2, ![800768, 1]⟩ : Shape).Idx → BitVec 32) (nfp : (⟨2, ![51200, 128]⟩ : Shape).Idx → EReal) :
    (⟨2, ![800768, 128]⟩ : Shape).Idx → EReal :=
  fun j => if h : (srcp (ix2 (⟨(j 0).val, idx2_lt0 j⟩ : Fin 800768) (0 : Fin 1))).toNat < 51200
    then nfp (ix2 (⟨_, h⟩ : Fin 51200) (⟨(j 1).val, idx2_lt1 j⟩ : Fin 128)) else 0

/-- The padded aggregation: padded node `v` sums the rows of the padded edges whose destination word is `v`. -/
def aggp (dstp : (⟨2, ![1, 800768]⟩ : Shape).Idx → BitVec 32) (msgp : (⟨2, ![800768, 128]⟩ : Shape).Idx → EReal)
    (v : Fin 51200) (f : Fin 128) : EReal :=
  ∑ e : Fin 800768, if dstp (ix2 (0 : Fin 1) e) = BitVec.ofNat 32 v.val then msgp (ix2 e f) else 0

/-- The linear layer on the padded aggregation. -/
def O1 (dstp : (⟨2, ![1, 800768]⟩ : Shape).Idx → BitVec 32) (msgp : (⟨2, ![800768, 128]⟩ : Shape).Idx → EReal)
    (W : (⟨2, ![128, 128]⟩ : Shape).Idx → EReal) (b : (⟨1, ![128]⟩ : Shape).Idx → EReal) :
    (⟨2, ![51200, 128]⟩ : Shape).Idx → EReal :=
  fun j => (∑ f : Fin 128, aggp dstp msgp ⟨(j 0).val, idx2_lt0 j⟩ f * W (ix2 (⟨(j 1).val, idx2_lt1 j⟩ : Fin 128) f))
    + b (ix1 (⟨(j 1).val, idx2_lt1 j⟩ : Fin 128))

end Cert.Spec

end
-- ==== Proof.Ref.Value.lean ====
/- The reference read at an index: a gather of rows by the (in-range) source words, a scatter-add by the destination words, the linear layer. -/
import proofs.«407643_j28157805593244_2_alg».proof.Proof.Ref.Imports
import proofs.«407643_j28157805593244_2_alg».proof.Proof.Val.Spec

noncomputable section

open scoped BigOperators

namespace Cert.ReferenceIdeal.RefValue

open Cert.ReferenceIdeal Cert.ReferenceIdeal.Gen Cert.ReferenceIdeal.Read Idealize.ShloMosaic Idealize.ShloMosaic.ValueIdx

abbrev GD := gather_S50000x128_S800000x1_S800000x128_1_0_n_n_0_1_1128

abbrev SD := scatter_S50000x128_S800000x1_S800000x128_1_0_0_1

/-- The gather reads, at edge `e`, the row its start word names, clamped into the table. -/
theorem gather_apply {α : Type} (x : S50000x128.Idx → α) (idx : IVec S800000x1 32) (e : Fin 800000) (f : Fin 128) :
    Host.gather GD x idx (ix2 e f)
      = x (ix2 (⟨min (idx (ix2 e (0 : Fin 1))).toInt.toNat 49999, by omega⟩ : Fin 50000) f) := by
  unfold Host.gather
  congr 1
  funext a
  refine Fin.ext ?_
  match a with
  | ⟨0, _⟩ =>
    show GD.start (ix2 e f) idx 0 + GD.batchCoord (ix2 e f) 0 + GD.offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GD.startIndexMap from List.mem_singleton.mpr rfl)]
    have hsi : GD.siIdx (ix2 e f) ⟨List.idxOf (0 : Fin 2) GD.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GD.start (ix2 e f) idx 1 + GD.batchCoord (ix2 e f) 1 + GD.offCoord (ix2 e f) 1 = f.val
    rw [GatherDims.batchCoord_eq_zero _ _ _ List.not_mem_nil]
    unfold GatherDims.start
    rw [dif_neg (show ¬ (1 : Fin 2) ∈ GD.startIndexMap by decide)]
    unfold GatherDims.offCoord
    rw [dif_pos (show (1 : Fin 2) ∈ GD.sKept by decide)]
    simp only [Nat.add_zero, Nat.zero_add]
    rfl

theorem toInt_small (w : BitVec 32) (h : w.toNat < 50000) : w.toInt = (w.toNat : Int) := by
  rw [BitVec.toInt_eq_toNat_cond, if_pos (by omega)]

theorem not_slt_small (w : BitVec 32) (h : w.toNat < 50000) : IntOp.cmpi .slt w 0#32 = 0#1 := by
  have hs : w.slt 0#32 = false := by
    unfold BitVec.slt
    rw [decide_eq_false_iff_not]
    have h0 : (0#32 : BitVec 32).toInt = 0 := by decide
    rw [h0, toInt_small w h]
    omega
  show BitVec.ofBool (w.slt 0#32) = 0#1
  rw [hs]
  rfl

theorem toInt_eq_iff (w : BitVec 32) (n : Nat) (hn : n < 50000) : w.toInt = (n : Int) ↔ w = BitVec.ofNat 32 n := by
  have hw := w.isLt
  constructor
  · intro h
    apply BitVec.eq_of_toNat_eq
    rw [BitVec.toNat_ofNat, Nat.mod_eq_of_lt (by omega)]
    rw [BitVec.toInt_eq_toNat_cond] at h
    split at h <;> omega
  · intro h
    subst h
    rw [BitVec.toInt_eq_toNat_cond, BitVec.toNat_ofNat, Nat.mod_eq_of_lt (by omega), if_pos (by omega)]

theorem v5_apply (src : (⟨S800000, .i32⟩ : BufTy).Contents (Elt Ideal)) (hsrc : ∀ e : Fin 800000, (src (ix1 e)).toNat < 50000)
    (e : Fin 800000) : val_main_v5 (F := Ideal) src (ix2 e (0 : Fin 1)) = src (ix1 e) := by
  rw [val_main_v5_apply]
  have hi : idx_main_v5 (ix2 e (0 : Fin 1)) = ix1 e := by
    funext a; match a with | ⟨0, _⟩ => rfl
  rw [hi, val_main_v4_apply, val_main_v1_apply, val_main_v0_apply, val_main_c_apply, not_slt_small _ (hsrc e), select_zero]

/-- With sources in range the gathered rows are the rows the edges carry. -/
theorem v6_apply (nf : (⟨S50000x128, .f32⟩ : BufTy).Contents (Elt Ideal)) (src : (⟨S800000, .i32⟩ : BufTy).Contents (Elt Ideal))
    (hsrc : ∀ e : Fin 800000, (src (ix1 e)).toNat < 50000) (e : Fin 800000) (f : Fin 128) :
    val_main_v6 (F := Ideal) nf src (ix2 e f) = Cert.Spec.msg nf src e f := by
  unfold val_main_v6
  refine (gather_apply nf (val_main_v5 (F := Ideal) src) e f).trans ?_
  refine congrArg (fun r : Fin 50000 => nf (ix2 r f)) (Fin.ext ?_)
  show min (val_main_v5 (F := Ideal) src (ix2 e (0 : Fin 1))).toInt.toNat 49999 = min (src (ix1 e)).toNat 49999
  rw [v5_apply src hsrc e, toInt_small _ (hsrc e), Int.toNat_natCast]

section Landing
variable (idx : IVec S800000x1 32) (e : Fin 800000) (f' : Fin 128)

theorem sd_start0 : SD.start (ix2 e f') idx (0 : Fin 2) = (idx (ix2 e (0 : Fin 1))).toInt := by
  unfold ScatterDims.start
  rw [dif_pos (show (0 : Fin 2) ∈ SD.scatterDimsToOperandDims from List.mem_singleton.mpr rfl)]
  have hsi : SD.siIdx (ix2 e f') ⟨List.idxOf (0 : Fin 2) SD.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem sd_start1 : SD.start (ix2 e f') idx (1 : Fin 2) = 0 := by
  unfold ScatterDims.start
  rw [dif_neg (show ¬ (1 : Fin 2) ∈ SD.scatterDimsToOperandDims by decide)]

theorem sd_window0 : SD.window (ix2 e f') (0 : Fin 2) = 0 := by
  unfold ScatterDims.window
  rw [dif_neg (show ¬ (0 : Fin 2) ∈ SD.sKept by decide)]

theorem sd_window1 : SD.window (ix2 e f') (1 : Fin 2) = f'.val := by
  unfold ScatterDims.window
  rw [dif_pos (show (1 : Fin 2) ∈ SD.sKept by decide)]
  rfl

theorem resultIdx_eq_some (v : Fin 50000) (f : Fin 128) :
    SD.resultIdx? (ix2 e f') idx = some (ix2 v f) ↔ f' = f ∧ idx (ix2 e (0 : Fin 1)) = BitVec.ofNat 32 v.val := by
  unfold ScatterDims.resultIdx?
  constructor
  · intro h
    split at h
    · rename_i hall
      have h' := Option.some.inj h
      have h0 : (SD.start (ix2 e f') idx (0 : Fin 2) + (SD.window (ix2 e f') (0 : Fin 2) : Int)).toNat = v.val :=
        congrArg (fun i : S50000x128.Idx => (i 0).val) h'
      have h1 : (SD.start (ix2 e f') idx (1 : Fin 2) + (SD.window (ix2 e f') (1 : Fin 2) : Int)).toNat = f.val :=
        congrArg (fun i : S50000x128.Idx => (i 1).val) h'
      have a0 : 0 ≤ SD.start (ix2 e f') idx (0 : Fin 2) + (SD.window (ix2 e f') (0 : Fin 2) : Int) := (hall 0).1
      rw [sd_start0, sd_window0] at h0 a0
      rw [sd_start1, sd_window1] at h1
      refine ⟨Fin.ext (by omega), (toInt_eq_iff _ v.val v.isLt).1 (by omega)⟩
    · exact absurd h (by simp)
  · rintro ⟨rfl, hw⟩
    have hi : (idx (ix2 e (0 : Fin 1))).toInt = (v.val : Int) := (toInt_eq_iff _ v.val v.isLt).2 hw
    have hv := v.isLt
    have hf := f'.isLt
    have hall : ∀ a : Fin 2, 0 ≤ SD.start (ix2 e f') idx a + (SD.window (ix2 e f') a : Int)
        ∧ SD.start (ix2 e f') idx a + (SD.window (ix2 e f') a : Int) < S50000x128.size a := by
      refine Fin.forall_fin_two.2 ⟨?_, ?_⟩
      · rw [sd_start0, sd_window0, hi]
        show _ ∧ _ < ((50000 : Nat) : Int)
        omega
      · rw [sd_start1, sd_window1]
        show _ ∧ _ < ((128 : Nat) : Int)
        omega
    rw [dif_pos hall]
    congr 1
    funext a
    refine Fin.ext ?_
    match a with
    | ⟨0, _⟩ =>
      show (SD.start (ix2 e f') idx (0 : Fin 2) + (SD.window (ix2 e f') (0 : Fin 2) : Int)).toNat = v.val
      rw [sd_start0, sd_window0, hi]
      omega
    | ⟨1, _⟩ =>
      show (SD.start (ix2 e f') idx (1 : Fin 2) + (SD.window (ix2 e f') (1 : Fin 2) : Int)).toNat = f'.val
      rw [sd_start1, sd_window1]
      omega

end Landing

/-- The scatter-add read at a node: the sum of the updates whose index word is that node. -/
theorem scatterAdd_apply (x : FVec Ideal S50000x128 .f32) (idx : IVec S800000x1 32) (upd : FVec Ideal S800000x128 .f32)
    (v : Fin 50000) (f : Fin 128) (hx : x (ix2 v f) = 0) :
    Host.scatterAdd SD x idx upd (ix2 v f)
      = ∑ e : Fin 800000, if idx (ix2 e (0 : Fin 1)) = BitVec.ofNat 32 v.val then upd (ix2 e f) else 0 := by
  show Ideal.hostScatterAdd SD x idx upd (ix2 v f) = _
  unfold Ideal.hostScatterAdd
  rw [hx, zero_add, Finset.sum_filter, sum_idx2]
  refine Finset.sum_congr rfl fun e _ => ?_
  have step : ∀ f' : Fin 128,
      (if SD.resultIdx? (ix2 e f') idx = some (ix2 v f) then upd (ix2 e f') else 0)
        = if f' = f then (if idx (ix2 e (0 : Fin 1)) = BitVec.ofNat 32 v.val then upd (ix2 e f) else 0) else 0 := by
    intro f'
    by_cases hf : f' = f
    · subst hf
      rw [if_pos rfl]
      exact if_congr ((resultIdx_eq_some idx e f' v f').trans (and_iff_right rfl)) rfl rfl
    · rw [if_neg hf, if_neg (fun h => hf ((resultIdx_eq_some idx e f' v f).1 h).1)]
  rw [Finset.sum_congr rfl (fun f' _ => step f'), Finset.sum_ite_eq' Finset.univ f, if_pos (Finset.mem_univ f)]

theorem v7_apply (i : S50000x128.Idx) : val_main_v7 (F := Ideal) i = 0 := by
  rw [val_main_v7_apply, val_main_cst_apply, Ideal.ofBits_def, Ideal.ofBits_zero_f32]

theorem v8_apply (dst : (⟨S800000, .i32⟩ : BufTy).Contents (Elt Ideal)) (e : Fin 800000) :
    val_main_v8 (F := Ideal) dst (ix2 e (0 : Fin 1)) = dst (ix1 e) := by
  rw [val_main_v8_apply]
  have hi : idx_main_v8 (ix2 e (0 : Fin 1)) = ix1 e := by
    funext a; match a with | ⟨0, _⟩ => rfl
  rw [hi]

theorem v9_apply (nf : (⟨S50000x128, .f32⟩ : BufTy).Contents (Elt Ideal)) (src dst : (⟨S800000, .i32⟩ : BufTy).Contents (Elt Ideal))
    (hsrc : ∀ e : Fin 800000, (src (ix1 e)).toNat < 50000) (v : Fin 50000) (f : Fin 128) :
    val_main_v9 (F := Ideal) nf src dst (ix2 v f) = Cert.Spec.agg nf src dst v f := by
  unfold val_main_v9
  refine (scatterAdd_apply _ _ _ v f (v7_apply _)).trans ?_
  unfold Cert.Spec.agg
  refine Finset.sum_congr rfl fun e _ => ?_
  rw [v8_apply, v6_apply nf src hsrc]

/-- The reference's result is the common value. -/
theorem ref_eq_G (nf : (⟨Cert.ReferenceIdeal.S50000x128, .f32⟩ : BufTy).Contents (Elt Ideal)) (src dst : (⟨Cert.ReferenceIdeal.S800000, .i32⟩ : BufTy).Contents (Elt Ideal))
    (W : (⟨Cert.ReferenceIdeal.S128x128, .f32⟩ : BufTy).Contents (Elt Ideal)) (b : (⟨Cert.ReferenceIdeal.S128, .f32⟩ : BufTy).Contents (Elt Ideal))
    (hsrc : ∀ e : Fin 800000, (src (ix1 e)).toNat < 50000) :
    Cert.ReferenceIdeal.Read.val_main_v13 (F := Ideal) nf src dst W b = Cert.Spec.G nf src dst W b := by
  funext i
  obtain ⟨v, o, rfl⟩ : ∃ (v : Fin 50000) (o : Fin 128), i = ix2 v o := ⟨i 0, i 1, eq_ix2 i⟩
  rw [Cert.Spec.G_apply, val_main_v13_apply, val_main_v10_apply, val_main_v12_apply, val_main_v11_apply, Ideal.addf_def]
  unfold Cert.Spec.out
  have hb : idx_main_v11 (idx_main_v12 (ix2 v o)) = ix1 o := by
    funext a; match a with | ⟨0, _⟩ => rfl
  rw [hb]
  refine congrArg (· + b (ix1 o)) (Finset.sum_congr rfl fun k _ => ?_)
  have hl : lidx_main_v10 (ix2 v o) k = ix2 v k := by
    funext a; match a with | ⟨0, _⟩ => rfl | ⟨1, _⟩ => rfl
  have hr : ridx_main_v10 (ix2 v o) k = ix2 o k := by
    funext a; match a with | ⟨0, _⟩ => rfl | ⟨1, _⟩ => rfl
  rw [hl, hr, v9_apply nf src dst hsrc]

end Cert.ReferenceIdeal.RefValue

end
-- ==== Proof.Fr.R0Shared.lean ====
import proofs.«407643_j28157805593244_2_alg».proof.Proof.Gen.KernelIdeal.Launch
import proofs.«407643_j28157805593244_2_alg».proof.Proof.Gen.KernelIdeal.Skeleton
import proofs.«407643_j28157805593244_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body resets its accumulator at the first step of the reduction axis -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

/-- and stores the output at its last step. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

theorem idle0_out (i : grid0.Coords) (h : ¬cond0_1 i) : cfg0.idle 3 i = true := by
  show (!(k0_cond2 i == 1#1)) = true
  rw [Bool.not_eq_true', beq_eq_false_iff_ne]; exact h
theorem live0_out (i : grid0.Coords) (h : cond0_1 i) : cfg0.idle 3 i = false := by
  show (!(k0_cond2 i == 1#1)) = false
  rw [Bool.not_eq_false', beq_iff_eq]; exact h
theorem noFlush0_out (t : Fin cfg0.N) (h : ¬cond0_1 (grid0.coords t)) : (cfg0.win 3).flush t = false :=
  Bool.eq_false_iff.mpr fun hf => h ((hcond0_1 t).mpr ((flush0_3 t).mp hf))

abbrev ms0_0 (t : Fin cfg0.N) : Memref sig .tc .vmem S2048x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
/-- The accumulator. -/
abbrev scM0_0 : Memref sig .tc .vmem S2048x128 .f32 := Memref.whole cc0_scratch0

theorem hz0 : (![0, 0] : Fin 2 → Nat) = fun _ => 0 := funext fun a => by fin_cases a <;> rfl

def rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄) = iprop(iprop((∃ d, owns (c : Thread nD τ) scM0_0 fullShare d) ∗ rest0 (F := F) c) ∗ (∃ r, prngReg c r)) := by
  unfold Pipeline.ΦA rest0
  rw [Pipeline.scopedRest_split_of_list spec0 c [cc0_scratch0] (by decide) (by decide)]
  simp only [scM0_0, owns_whole]; try rfl

end Cert.KernelIdeal.Fr

end
-- ==== Proof.Fr.R0Run.lean ====
import proofs.«407643_j28157805593244_2_alg».proof.Proof.Fr.R0Shared
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S2048x1 .i32) (harg2 : arg2.IsWhole) (arg3 : Memref sig .tc .vmem S2048x128 .bf16) (harg3 : arg3.IsWhole) (arg4 : Memref sig .tc .vmem S1x2048 .i32) (harg4 : arg4.IsWhole) (arg5 : Memref sig .tc .vmem S2048x128 .f32) (harg5 : arg5.IsWhole) (arg6 : Memref sig .tc .vmem S2048x128 .f32) (harg6 : arg6.IsWhole)
  (x0 : Vec F S2048x1 .i32) (x1 : Vec F S2048x128 .bf16) (x2 : Vec F S1x2048 .i32) (xo xs : Vec F S2048x128 .f32)

/-- What the body leaves in the scratch found at `xs`: the update of the zero payload where the reset is taken, of `xs` elsewhere. -/
abbrev upd0 : Vec F S2048x128 .f32 := k0_pay2 i x0 x2 x1 (if cond0_0 i then k0_pay1 else xs)

set_option maxHeartbeats 1000000 in
/-- The body keeps the inputs, updates the scratch, and where the second condition holds stores the updated scratch into the output. -/
theorem run0 (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2 ∗ (∃ d, ⌜(cond0_1 i → d = upd0 i x0 x1 x2 xs) ∧ (¬cond0_1 i → d = xo)⌝ ∗ owns (c : Thread nD τ) arg5 fullShare d) ∗ owns (c : Thread nD τ) arg6 fullShare (upd0 i x0 x1 x2 xs)) -∗ K ⟨⟩))
      ⊢ wp frame (wpE (defs₀ (F := F)) Variants.none c none) E (cc0__gather_kernel i arg2 harg2 arg3 harg3 arg4 harg4 arg5 harg5 arg6 harg6) K := by
  unfold upd0
  by_cases hc0 : cond0_0 i <;> by_cases hc1 : cond0_1 i
  all_goals first | rw [if_pos hc0] | rw [if_neg hc0]
  all_goals
    simp only [cc0__gather_kernel_eq_skeleton]; unfold cc0__gather_kernel_skel owns
    iintro ⟨⟨%f0, %hf0, H0⟩, ⟨%f1, %hf1, H1⟩, ⟨%f2, %hf2, H2⟩, ⟨%ff, %hff, HO⟩, ⟨%fs, %hfs, HS⟩, Hk⟩
    obtain rfl := harg2.eq_unread hf0; obtain rfl := harg3.eq_unread hf1; obtain rfl := harg4.eq_unread hf2; obtain rfl := harg5.eq_unread hff; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; swap
      · iexists _; isplitr; swap; · iexact HO
        ipureintro; rfl
      ipureintro
      first
      | exact ⟨fun h => absurd h hc1, fun _ => harg5.read_unread _⟩
      | refine ⟨fun _ => ?_, fun h => absurd hc1 h⟩
        rw [View.read_writes_eq_canon _ _ _ (View.cover_of_tiledL _ S2048x128.size (by sl_kernel_rfl))]
        try sl_unfold_words
        rw [View.canon_cons_unit_zero (S := S2048x128) hz0]
        simp only [View.readCov_cons_toLoadRect, View.readAt_eq_ld, harg2.read_unread, harg3.read_unread, harg4.read_unread, harg6.read_unread, View.ld_unit_zero (S := S2048x1) hz0, View.ld_unit_zero (S := S1x2048) hz0, View.ld_unit_zero (S := S2048x128) hz0]
    iexists _; isplitr; swap; · iexact HS
    ipureintro
    rw [View.read_writes_eq_canon _ _ _ (View.cover_of_tiledL _ S2048x128.size (by sl_kernel_rfl))]
    try sl_unfold_words
    rw [View.canon_cons_unit_zero (S := S2048x128) hz0]
    simp only [View.readCov_cons_toLoadRect, View.readAt_eq_ld, harg2.read_unread, harg3.read_unread, harg4.read_unread, harg6.read_unread, View.ld_unit_zero (S := S2048x1) hz0, View.ld_unit_zero (S := S1x2048) hz0, View.ld_unit_zero (S := S2048x128) hz0]

end Cert.KernelIdeal.Fr

end
-- ==== Proof.Fr.R0.lean ====
import proofs.«407643_j28157805593244_2_alg».proof.Proof.Fr.R0Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's update at point `t`, by the point's blocks, of an accumulator found at `xs`. -/
abbrev step0 (c : Dev nD) (t : Fin cfg0.N) (xs : Vec F S2048x128 .f32) : Vec F S2048x128 .f32 :=
  upd0 (grid0.coords t) (iblk0 V c 0 t) (iblk0 V c 1 t) (iblk0 V c 2 t) xs

/-- The accumulator after point `n`: the first point updates the zero payload, every other what the point before left. -/
def sc0 (c : Dev nD) : (n : ℕ) → n < cfg0.N → Vec F S2048x128 .f32
  | 0, h => step0 V c ⟨0, h⟩ k0_pay1
  | n + 1, h => step0 V c ⟨n + 1, h⟩ (sc0 c n (Nat.lt_of_succ_lt h))

/-- What the body stores into the output (where it stores) and the accumulator after point `n`. -/
def outsAt0 (c : Dev nD) (n : ℕ) (h : n < cfg0.N) : Vec F S2048x128 .f32 × Vec F S2048x128 .f32 :=
  (if cond0_1 (grid0.coords ⟨n, h⟩) then sc0 V c n h else k0_pay1, sc0 V c n h)

/-- A point's update of what the point before left is what the point leaves: the first point resets. -/
theorem sc0_step (c : Dev nD) (t : Fin cfg0.N) (xs : Vec F S2048x128 .f32) (hxs : ∀ h, t.val ≠ 0 → xs = sc0 V c (t.val - 1) h) :
    step0 V c t xs = sc0 V c t.val t.isLt := by
  obtain ⟨n, hn⟩ := t
  cases n with
  | zero =>
    have hc : cond0_0 (grid0.coords ⟨0, hn⟩) := (hcond0_0 _).mpr rfl
    show k0_pay2 _ _ _ _ (if cond0_0 (grid0.coords ⟨0, hn⟩) then k0_pay1 else xs) = k0_pay2 _ _ _ _ (if cond0_0 (grid0.coords ⟨0, hn⟩) then k0_pay1 else k0_pay1)
    rw [if_pos hc, if_pos hc]
  | succ n => rw [hxs (by omega) (Nat.succ_ne_zero n)]; rfl

/-- The region invariant before position `n`: the class's, with the accumulator (after the first point) at what the point before left. -/
def PhiS0 (c : Dev nD) (n : ℕ) : sProp 𝕄 :=
  iprop(iprop((∃ xs, ⌜∀ h, n ≠ 0 → xs = sc0 V c (n - 1) h⌝ ∗ owns (c : Thread nD τ) scM0_0 fullShare xs) ∗ rest0 (F := F) c) ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val
  q _ := fullShare
  owed _ := 0

theorem A_eq0 (c : Dev nD) (w : Fin cfg0.W) : (dat0 V c).A w = V c (Pipeline.arrRef spec0 w) := rfl
theorem after0_3 (c : Dev nD) (t : Fin cfg0.N) : (dat0 V c).after 3 t = (outsAt0 V c t.val t.isLt).1 := rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

theorem live0 (c : Dev nD) (t : Fin cfg0.N) (w : Fin cfg0.W) (h : cfg0.idle w (grid0.coords t) = false) :
    (dat0 V c).leavesExact w t = owns (c : Thread nD τ) ((cfg0.win w).stage (cfg0.slots t w)) fullShare ((dat0 V c).after w t) := by
  unfold Dat.leavesExact; rw [h]

/-- The body at any point takes the accumulator at what the point before left (at anything before the first point) and leaves it updated. -/
theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d)))
    ⊢ wp frame (wpE (defs₀ (F := F)) Variants.none c none) Set.univ (bodyAt0 t) (fun _ => iprop((dat0 V c).Φ t.succ ∗ (dat0 V c).owesAt () t.succ
      ∗ (dat0 V c).leavesExact 0 t
      ∗ (dat0 V c).leavesExact 1 t
      ∗ (dat0 V c).leavesExact 2 t
      ∗ (dat0 V c).leavesExact 3 t))
  unfold bodyAt0
  simp only [before0_0, before0_1, before0_2]
  rw [show (dat0 V c).owesAt () t.succ = (dat0 V c).owesAt () t.castSucc from rfl,
    show (dat0 V c).Φ t.succ = PhiS0 V c (t.val + 1) from rfl, show (dat0 V c).Φ t.castSucc = PhiS0 V c t.val from rfl,
    live0 V c t 0 rfl, live0 V c t 1 rfl, live0 V c t 2 rfl]
  unfold PhiS0
  by_cases hc1 : cond0_1 (grid0.coords t)
  on_goal 1 => rw [live0 V c t 3 (live0_out _ hc1), after0_3, show (outsAt0 V c t.val t.isLt).1 = sc0 V c t.val t.isLt from if_pos hc1]
  on_goal 2 => rw [Dat.leavesExact_idle (dat0 V c) 3 t (idle0_out _ hc1) (noFlush0_out t hc1)]
  all_goals
    iintro ⟨⟨⟨⟨%xs, %hxs, HS⟩, Hr⟩, Hg⟩, Ho, ⟨%d0, H0⟩, ⟨%d1, H1⟩, ⟨%d2, H2⟩, ⟨%d3, H3⟩⟩
    try rw [← sc0_step V c t xs hxs]
    iapply (run0 c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t) (iblk0 V c 2 t) _ xs Set.univ _)
    isplitl [H0]; · iexact H0
    isplitl [H1]; · iexact H1
    isplitl [H2]; · iexact H2
    isplitl [H3]; · iexact H3
    isplitl [HS]; · iexact HS
    iintro ⟨H0, H1, H2, ⟨%e, %he, H3⟩, HS⟩
    isplitl [HS Hr Hg]
    · isplitl [HS Hr]
      · isplitl [HS]
        · iexists _; isplitr; swap; · iexact HS
          ipureintro; exact fun _ _ => sc0_step V c t xs hxs
        iexact Hr
      iexact Hg
    isplitl [Ho]; · iexact Ho
    isplitl [H0]; · iexact H0
    isplitl [H1]; · iexact H1
    isplitl [H2]; · iexact H2
    first
    | obtain rfl := he.1 hc1; iexact H3
    | obtain rfl := he.2 hc1; iexists _; iexact H3

/-- The invariant holds before the first point, -/
theorem hin0 (c : Dev nD) : Pipeline.ΦA spec0 c ⊢ (dat0 V c).Φ 0 := by
  rw [PhiA0_eq]
  show _ ⊢ PhiS0 V c 0
  unfold PhiS0
  iintro ⟨⟨⟨%d, HS⟩, Hr⟩, Hg⟩
  isplitl [HS Hr]
  · isplitl [HS]
    · iexists d; isplitr; · ipureintro; exact fun _ h => absurd rfl h
      iexact HS
    iexact Hr
  iexact Hg

/-- and after the last point the accumulator's contents are forgotten. -/
theorem hout0 (c : Dev nD) : (dat0 V c).Φ (Fin.last cfg0.N) ⊢ Pipeline.ΦA spec0 c := by
  rw [PhiA0_eq]
  show PhiS0 V c _ ⊢ _
  unfold PhiS0
  iintro ⟨⟨⟨%d, -, HS⟩, Hr⟩, Hg⟩
  isplitl [HS Hr]
  · isplitl [HS]
    · iexists d; iexact HS
    iexact Hr
  iexact Hg

/-- After a first step of the reduction axis the accumulator holds the update, by the point's blocks, of the zero payload. -/
theorem sc0_first (c : Dev nD) (t : Fin cfg0.N) (h : t.val % 25 = 0) :
    (outsAt0 V c t.val t.isLt).2 = k0_pay2 (grid0.coords t) (iblk0 V c 0 t) (iblk0 V c 2 t) (iblk0 V c 1 t) (k0_pay1 (F := F)) := by
  obtain ⟨n, hn⟩ := t
  cases n <;> exact congrArg (k0_pay2 _ _ _ _) (if_pos ((hcond0_0 _).mpr h))

/-- After any other step it holds the update, by the point's blocks, of what the point before left. -/
theorem sc0_next (c : Dev nD) (t : Fin cfg0.N) (h : ¬ t.val % 25 = 0) :
    (outsAt0 V c t.val t.isLt).2 = k0_pay2 (grid0.coords t) (iblk0 V c 0 t) (iblk0 V c 2 t) (iblk0 V c 1 t)
      (outsAt0 V c (t.val - 1) (Nat.lt_of_le_of_lt (Nat.sub_le _ _) t.isLt)).2 := by
  obtain ⟨n, hn⟩ := t
  cases n with
  | zero => exact absurd (Nat.zero_mod _) h
  | succ n => exact congrArg (k0_pay2 _ _ _ _) (if_neg fun hc => h ((hcond0_0 _).mp hc))

/-- At a last step of the reduction axis the body stores into the output what the accumulator holds. -/
theorem out0_last (c : Dev nD) (t : Fin cfg0.N) (h : t.val % 25 = 24) :
    (outsAt0 V c t.val t.isLt).1 = (outsAt0 V c t.val t.isLt).2 := if_pos ((hcond0_1 t).mpr h)

end Cert.KernelIdeal.Fr

end
-- ==== Proof.Fr.R1Shared.lean ====
import proofs.«407643_j28157805593244_2_alg».proof.Proof.Gen.KernelIdeal.Launch
import proofs.«407643_j28157805593244_2_alg».proof.Proof.Gen.KernelIdeal.Skeleton
import proofs.«407643_j28157805593244_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body resets its accumulator at the first step of the reduction axis -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 391 = 0 :=
  (by decide +kernel : ∀ t : Fin grid1.N, cond1_0 (grid1.coords t) ↔ t.val % 391 = 0)

/-- and stores the output at its last step. -/
abbrev cond1_1 (i : grid1.Coords) : Prop := k1_cond2 i = 1#1
theorem hcond1_1 : ∀ t : Fin cfg1.N, cond1_1 (grid1.coords t) ↔ t.val % 391 = 390 :=
  (by decide +kernel : ∀ t : Fin grid1.N, cond1_1 (grid1.coords t) ↔ t.val % 391 = 390)

theorem idle1_out (i : grid1.Coords) (h : ¬cond1_1 i) : cfg1.idle 5 i = true := by
  show (!(k1_cond2 i == 1#1)) = true
  rw [Bool.not_eq_true', beq_eq_false_iff_ne]; exact h
theorem live1_out (i : grid1.Coords) (h : cond1_1 i) : cfg1.idle 5 i = false := by
  show (!(k1_cond2 i == 1#1)) = false
  rw [Bool.not_eq_false', beq_iff_eq]; exact h
theorem noFlush1_out (t : Fin cfg1.N) (h : ¬cond1_1 (grid1.coords t)) : (cfg1.win 5).flush t = false :=
  Bool.eq_false_iff.mpr fun hf => h ((hcond1_1 t).mpr ((flush1_5 t).mp hf))

abbrev ms1_0 (t : Fin cfg1.N) : Memref sig .tc .vmem S1x2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x128 .f32 := win1_5.stage (cfg1.slots t 5)
abbrev hs1_5 (t : Fin cfg1.N) : (ms1_5 t).IsWhole := hstage1_5 ((cfg1.slots t 5).cast nbuf1_5)
/-- The accumulator. -/
abbrev scM1_0 : Memref sig .tc .vmem S2048x128 .f32 := Memref.whole cc1_scratch0

theorem zeroOff1_2 : (![0, 0] : Fin 2 → Nat) = fun _ => 0 := funext fun a => by fin_cases a <;> rfl
theorem zeroOff1_1 : (![0] : Fin 1 → Nat) = fun _ => 0 := funext fun a => by fin_cases a; rfl

def rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄) = iprop(iprop((∃ d, owns (c : Thread nD τ) scM1_0 fullShare d) ∗ rest1 (F := F) c) ∗ (∃ r, prngReg c r)) := by
  unfold Pipeline.ΦA rest1
  rw [Pipeline.scopedRest_split_of_list spec1 c [cc1_scratch0] (by decide) (by decide)]
  simp only [scM1_0, owns_whole]; try rfl

end Cert.KernelIdeal.Fr

end
-- ==== Proof.Fr.R1Run.lean ====
import proofs.«407643_j28157805593244_2_alg».proof.Proof.Fr.R1Shared
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S1x2048 .i32) (harg2 : arg2.IsWhole) (arg3 : Memref sig .tc .vmem S2048x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S2048x1 .i32) (harg6 : arg6.IsWhole) (arg7 : Memref sig .tc .vmem S2048x128 .f32) (harg7 : arg7.IsWhole) (arg8 : Memref sig .tc .vmem S2048x128 .f32) (harg8 : arg8.IsWhole)
  (x0 : Vec F S1x2048 .i32) (x1 : Vec F S2048x128 .f32) (x2 : Vec F S128x128 .f32) (x3 : Vec F S128 .f32) (x4 : Vec F S2048x1 .i32) (xo xs : Vec F S2048x128 .f32)

/-- What the body leaves in the accumulator found at `xs`: the step's payload over the zero block where the reset is taken, over `xs` elsewhere. -/
abbrev upd1 : Vec F S2048x128 .f32 := k1_pay2 i x0 x4 x1 (if cond1_0 i then k1_pay1 else xs)

set_option maxHeartbeats 1000000 in
/-- The body keeps the inputs, updates the accumulator, and where the second conditional holds stores the final payload of the updated accumulator, the weights and the bias into the output. -/
theorem run1 (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, ⌜(cond1_1 i → d = k1_pay3 (upd1 i x0 x1 x4 xs) x2 x3) ∧ (¬cond1_1 i → d = xo)⌝ ∗ owns (c : Thread nD τ) arg7 fullShare d) ∗ owns (c : Thread nD τ) arg8 fullShare (upd1 i x0 x1 x4 xs)) -∗ K ⟨⟩))
      ⊢ wp frame (wpE (defs₀ (F := F)) Variants.none c none) E (cc1__scatter_kernel i arg2 harg2 arg3 harg3 arg4 harg4 arg5 harg5 arg6 harg6 arg7 harg7 arg8 harg8) K := by
  unfold upd1
  by_cases hc0 : cond1_0 i <;> by_cases hc1 : cond1_1 i
  all_goals first | rw [if_pos hc0] | rw [if_neg hc0]
  all_goals
    simp only [cc1__scatter_kernel_eq_skeleton]; unfold cc1__scatter_kernel_skel owns
    iintro ⟨⟨%f0, %hf0, H0⟩, ⟨%f1, %hf1, H1⟩, ⟨%f2, %hf2, H2⟩, ⟨%f3, %hf3, H3⟩, ⟨%f4, %hf4, H4⟩, ⟨%ff, %hff, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hff; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; swap
      · iexists _; isplitr; swap; · iexact HO
        ipureintro; rfl
      ipureintro
      first
      | exact ⟨fun h => absurd h hc1, fun _ => harg7.read_unread _⟩
      | refine ⟨fun _ => ?_, fun h => absurd hc1 h⟩
        rw [View.read_writes_eq_canon _ _ _ (View.cover_of_tiledL _ S2048x128.size (by sl_kernel_rfl))]
        try sl_unfold_words
        rw [View.canon_cons_unit_zero (S := S2048x128) zeroOff1_2]
        simp only [View.readCov_cons_toLoadRect, View.readAt_eq_ld, harg2.read_unread, harg3.read_unread, harg4.read_unread, harg5.read_unread, harg6.read_unread, harg8.read_unread, View.ld_unit_zero (S := S1x2048) zeroOff1_2, View.ld_unit_zero (S := S2048x1) zeroOff1_2, View.ld_unit_zero (S := S2048x128) zeroOff1_2, View.ld_unit_zero (S := S128x128) zeroOff1_2, View.ld_unit_zero (S := S128) zeroOff1_1]
    iexists _; isplitr; swap; · iexact HS
    ipureintro
    rw [View.read_writes_eq_canon _ _ _ (View.cover_of_tiledL _ S2048x128.size (by sl_kernel_rfl))]
    try sl_unfold_words
    rw [View.canon_cons_unit_zero (S := S2048x128) zeroOff1_2]
    simp only [View.readCov_cons_toLoadRect, View.readAt_eq_ld, harg2.read_unread, harg3.read_unread, harg4.read_unread, harg5.read_unread, harg6.read_unread, harg8.read_unread, View.ld_unit_zero (S := S1x2048) zeroOff1_2, View.ld_unit_zero (S := S2048x1) zeroOff1_2, View.ld_unit_zero (S := S2048x128) zeroOff1_2, View.ld_unit_zero (S := S128x128) zeroOff1_2, View.ld_unit_zero (S := S128) zeroOff1_1]

end Cert.KernelIdeal.Fr

end
-- ==== Proof.Fr.R1.lean ====
import proofs.«407643_j28157805593244_2_alg».proof.Proof.Fr.R1Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's update at point `t`, by the point's blocks, of an accumulator found at `xs`. -/
abbrev step1 (c : Dev nD) (t : Fin cfg1.N) (xs : Vec F S2048x128 .f32) : Vec F S2048x128 .f32 :=
  upd1 (grid1.coords t) (iblk1 V c 0 t) (iblk1 V c 1 t) (iblk1 V c 4 t) xs

/-- The accumulator after point `n`: the first point updates the zero payload, every other what the point before left. -/
def sc1 (c : Dev nD) : (n : ℕ) → n < cfg1.N → Vec F S2048x128 .f32
  | 0, h => step1 V c ⟨0, h⟩ k1_pay1
  | n + 1, h => step1 V c ⟨n + 1, h⟩ (sc1 c n (Nat.lt_of_succ_lt h))

/-- What the body stores into the output (where it stores) and the accumulator after point `n`. -/
def outsAt1 (c : Dev nD) (n : ℕ) (h : n < cfg1.N) : Vec F S2048x128 .f32 × Vec F S2048x128 .f32 :=
  (if cond1_1 (grid1.coords ⟨n, h⟩) then k1_pay3 (sc1 V c n h) (iblk1 V c 2 ⟨n, h⟩) (iblk1 V c 3 ⟨n, h⟩) else k1_pay1, sc1 V c n h)

/-- A point's update of what the point before left is what the point leaves: the first point resets. -/
theorem sc1_step (c : Dev nD) (t : Fin cfg1.N) (xs : Vec F S2048x128 .f32) (hxs : ∀ h, t.val ≠ 0 → xs = sc1 V c (t.val - 1) h) :
    step1 V c t xs = sc1 V c t.val t.isLt := by
  obtain ⟨n, hn⟩ := t
  cases n with
  | zero =>
    have hc : cond1_0 (grid1.coords ⟨0, hn⟩) := (hcond1_0 _).mpr rfl
    show k1_pay2 _ _ _ _ (if cond1_0 (grid1.coords ⟨0, hn⟩) then k1_pay1 else xs) = k1_pay2 _ _ _ _ (if cond1_0 (grid1.coords ⟨0, hn⟩) then k1_pay1 else k1_pay1)
    rw [if_pos hc, if_pos hc]
  | succ n => rw [hxs (by omega) (Nat.succ_ne_zero n)]; rfl

/-- The region invariant before position `n`: the class's, with the accumulator (after the first point) at what the point before left. -/
def PhiS1 (c : Dev nD) (n : ℕ) : sProp 𝕄 :=
  iprop(iprop((∃ xs, ⌜∀ h, n ≠ 0 → xs = sc1 V c (n - 1) h⌝ ∗ owns (c : Thread nD τ) scM1_0 fullShare xs) ∗ rest1 (F := F) c) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val
  q _ := fullShare
  owed _ := 0

theorem A_eq1 (c : Dev nD) (w : Fin cfg1.W) : (dat1 V c).A w = V c (Pipeline.arrRef spec1 w) := rfl
theorem after1_5 (c : Dev nD) (t : Fin cfg1.N) : (dat1 V c).after 5 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

theorem live1 (c : Dev nD) (t : Fin cfg1.N) (w : Fin cfg1.W) (h : cfg1.idle w (grid1.coords t) = false) :
    (dat1 V c).leavesExact w t = owns (c : Thread nD τ) ((cfg1.win w).stage (cfg1.slots t w)) fullShare ((dat1 V c).after w t) := by
  unfold Dat.leavesExact; rw [h]

/-- The body at any point takes the accumulator at what the point before left (at anything before the first point) and leaves it updated. -/
theorem body_obligation1 (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d))
      ∗ (∃ d, owns (c : Thread nD τ) (ms1_5 t) fullShare ((dat1 V c).before 5 t d)))
    ⊢ wp frame (wpE (defs₀ (F := F)) Variants.none c none) Set.univ (bodyAt1 t) (fun _ => iprop((dat1 V c).Φ t.succ ∗ (dat1 V c).owesAt () t.succ
      ∗ (dat1 V c).leavesExact 0 t
      ∗ (dat1 V c).leavesExact 1 t
      ∗ (dat1 V c).leavesExact 2 t
      ∗ (dat1 V c).leavesExact 3 t
      ∗ (dat1 V c).leavesExact 4 t
      ∗ (dat1 V c).leavesExact 5 t))
  unfold bodyAt1
  simp only [before1_0, before1_1, before1_2, before1_3, before1_4]
  rw [show (dat1 V c).owesAt () t.succ = (dat1 V c).owesAt () t.castSucc from rfl,
    show (dat1 V c).Φ t.succ = PhiS1 V c (t.val + 1) from rfl, show (dat1 V c).Φ t.castSucc = PhiS1 V c t.val from rfl,
    live1 V c t 0 rfl, live1 V c t 1 rfl, live1 V c t 2 rfl, live1 V c t 3 rfl, live1 V c t 4 rfl]
  unfold PhiS1
  by_cases hc1 : cond1_1 (grid1.coords t)
  on_goal 1 => rw [live1 V c t 5 (live1_out _ hc1), after1_5, show (outsAt1 V c t.val t.isLt).1 = k1_pay3 (sc1 V c t.val t.isLt) (iblk1 V c 2 t) (iblk1 V c 3 t) from if_pos hc1]
  on_goal 2 => rw [Dat.leavesExact_idle (dat1 V c) 5 t (idle1_out _ hc1) (noFlush1_out t hc1)]
  all_goals
    iintro ⟨⟨⟨⟨%xs, %hxs, HS⟩, Hr⟩, Hg⟩, Ho, ⟨%d0, H0⟩, ⟨%d1, H1⟩, ⟨%d2, H2⟩, ⟨%d3, H3⟩, ⟨%d4, H4⟩, ⟨%d5, H5⟩⟩
    try rw [← sc1_step V c t xs hxs]
    iapply (run1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iblk1 V c 0 t) (iblk1 V c 1 t) (iblk1 V c 2 t) (iblk1 V c 3 t) (iblk1 V c 4 t) _ xs Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, ⟨%e, %he, H5⟩, HS⟩
    isplitl [HS Hr Hg]
    · isplitl [HS Hr]
      · isplitl [HS]
        · iexists _; isplitr; swap; · iexact HS
          ipureintro; exact fun _ _ => sc1_step V c t xs hxs
        iexact Hr
      iexact Hg
    isplitl [Ho]; · iexact Ho
    isplitl [H0]; · iexact H0
    isplitl [H1]; · iexact H1
    isplitl [H2]; · iexact H2
    isplitl [H3]; · iexact H3
    isplitl [H4]; · iexact H4
    first
    | obtain rfl := he.1 hc1; iexact H5
    | obtain rfl := he.2 hc1; iexists _; iexact H5

/-- The invariant holds before the first point, -/
theorem hin1 (c : Dev nD) : Pipeline.ΦA spec1 c ⊢ (dat1 V c).Φ 0 := by
  rw [PhiA1_eq]
  show _ ⊢ PhiS1 V c 0
  unfold PhiS1
  iintro ⟨⟨⟨%d, HS⟩, Hr⟩, Hg⟩
  isplitl [HS Hr]
  · isplitl [HS]
    · iexists d; isplitr; · ipureintro; exact fun _ h => absurd rfl h
      iexact HS
    iexact Hr
  iexact Hg

/-- and after the last point the accumulator's contents are forgotten. -/
theorem hout1 (c : Dev nD) : (dat1 V c).Φ (Fin.last cfg1.N) ⊢ Pipeline.ΦA spec1 c := by
  rw [PhiA1_eq]
  show PhiS1 V c _ ⊢ _
  unfold PhiS1
  iintro ⟨⟨⟨%d, -, HS⟩, Hr⟩, Hg⟩
  isplitl [HS Hr]
  · isplitl [HS]
    · iexists d; iexact HS
    iexact Hr
  iexact Hg

/-- After a first step of the reduction axis the accumulator holds the update, by the point's blocks, of the zero payload. -/
theorem sc1_first (c : Dev nD) (t : Fin cfg1.N) (h : t.val % 391 = 0) :
    (outsAt1 V c t.val t.isLt).2 = k1_pay2 (grid1.coords t) (iblk1 V c 0 t) (iblk1 V c 4 t) (iblk1 V c 1 t) (k1_pay1 (F := F)) := by
  obtain ⟨n, hn⟩ := t
  cases n <;> exact congrArg (k1_pay2 _ _ _ _) (if_pos ((hcond1_0 _).mpr h))

/-- After any other step it holds the update, by the point's blocks, of what the point before left. -/
theorem sc1_next (c : Dev nD) (t : Fin cfg1.N) (h : ¬ t.val % 391 = 0) :
    (outsAt1 V c t.val t.isLt).2 = k1_pay2 (grid1.coords t) (iblk1 V c 0 t) (iblk1 V c 4 t) (iblk1 V c 1 t)
      (outsAt1 V c (t.val - 1) (Nat.lt_of_le_of_lt (Nat.sub_le _ _) t.isLt)).2 := by
  obtain ⟨n, hn⟩ := t
  cases n with
  | zero => exact absurd (Nat.zero_mod _) h
  | succ n => exact congrArg (k1_pay2 _ _ _ _) (if_neg fun hc => h ((hcond1_0 _).mp hc))

/-- At a last step the body stores into the output the final payload of the accumulator, the weights' block and the bias' block. -/
theorem out1_last (c : Dev nD) (t : Fin cfg1.N) (h : t.val % 391 = 390) :
    (outsAt1 V c t.val t.isLt).1 = k1_pay3 (outsAt1 V c t.val t.isLt).2 (iblk1 V c 2 t) (iblk1 V c 3 t) := if_pos ((hcond1_1 t).mpr h)

end Cert.KernelIdeal.Fr

end
-- ==== Proof.Fr.Regs.lean ====
import proofs.«407643_j28157805593244_2_alg».proof.Proof.Fr.R0
import proofs.«407643_j28157805593244_2_alg».proof.Proof.Fr.R1
import proofs.«407643_j28157805593244_2_alg».proof.Proof.Gen.KernelIdeal.Regions
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as region 0 finds them. -/
abbrev VR7 (c : Dev nD) (b : Ref sig .tc) : Buf (Elt F) ((c : Thread nD τ).loc b) := Gen.V7 m c b

/-- Region 0's output array after the region, and the valuation after it. -/
def X0 (c : Dev nD) : Buf (Elt F) ((c : Thread nD τ).loc main_v10) := (dat0 (VR7 m) c).arrAt 3 cfg0.N

abbrev W8 (c : Dev nD) : Valuation τ sig (Elt F) := Function.update (Gen.V7 m c) main_v10 (X0 m c)

abbrev VR8 (c : Dev nD) (b : Ref sig .tc) : Buf (Elt F) ((c : Thread nD τ).loc b) := W8 m c b

/-- The same for region 1. -/
def X1 (c : Dev nD) : Buf (Elt F) ((c : Thread nD τ).loc main_v11) := (dat1 (VR8 m) c).arrAt 5 cfg1.N

abbrev W9 (c : Dev nD) : Valuation τ sig (Elt F) := Function.update (W8 m c) main_v11 (X1 m c)

def outs : Gen.Outs (F := F) := fun _ r c =>
  Function.update (Function.update (fun r : Ref sig .tc => (Gen.V7 m c r : Buf (Elt F) ((c : Thread nD τ).loc r))) main_v10 (X0 m c)) main_v11 (X1 m c) r

theorem outs_v10 (J : ℕ) (c : Dev nD) : outs m J main_v10 c = X0 m c := by
  unfold outs
  rw [Function.update_of_ne (show (main_v10 : Ref sig .tc) ≠ main_v11 by decide), Function.update_self]
theorem outs_v11 (J : ℕ) (c : Dev nD) : outs m J main_v11 c = X1 m c := by
  unfold outs
  rw [Function.update_self]

theorem V8_val (c : Dev nD) : Gen.V8 m (outs m) c = W8 m c := by
  show Function.update (Gen.V7 m c) main_v10 (outs m 8 main_v10 c) = _
  rw [outs_v10]
theorem V9_val (c : Dev nD) : Gen.V9 m (outs m) c = W9 m c := by
  show Function.update (Gen.V8 m (outs m) c) main_v11 (outs m 9 main_v11 c) = _
  rw [outs_v11, V8_val]

def pdats : (p : Fin 2) → (c : Dev nD) → Dat τ (Elt F) Unit ℕ (UR sig nD τ) ℕ (cfgs p) c
  | ⟨0, _⟩ => fun c => dat0 (VR7 m) c
  | ⟨1, _⟩ => fun c => dat1 (VR8 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0 (c : Dev nD) (w : Fin cfg0.W) : (pdats m 0 c).arrAt w cfg0.N = VR8 m c (Pipeline.arrRef spec0 w) := by
  match w with
  | ⟨0, _⟩ => exact ((dat0 (VR7 m) c).arrAt_in 0 rfl _).trans ((A_eq0 (VR7 m) c 0).trans (Function.update_of_ne (StableHlo.devRef_ne_of_ne (by decide)) _ _).symm)
  | ⟨1, _⟩ => exact ((dat0 (VR7 m) c).arrAt_in 1 rfl _).trans ((A_eq0 (VR7 m) c 1).trans (Function.update_of_ne (StableHlo.devRef_ne_of_ne (by decide)) _ _).symm)
  | ⟨2, _⟩ => exact ((dat0 (VR7 m) c).arrAt_in 2 rfl _).trans ((A_eq0 (VR7 m) c 2).trans (Function.update_of_ne (StableHlo.devRef_ne_of_ne (by decide)) _ _).symm)
  | ⟨3, _⟩ => exact (Function.update_self (Proc.devRef .tc main_v10 : DevRef τ sig) (X0 m c) (Gen.V7 m c)).symm
theorem hrest0 (c : Dev nD) : ∀ b, b ∉ Finset.univ.image (Pipeline.arrRef spec0) → VR8 m c b = VR7 m c b := fun b hb =>
  Function.update_of_ne (StableHlo.devRef_ne_of_ne (fun e => hb (Finset.mem_image.mpr ⟨3, Finset.mem_univ _, e.symm⟩)) : (Proc.devRef .tc b : DevRef τ sig) ≠ Proc.devRef .tc main_v10) _ _

theorem hF1 (c : Dev nD) (w : Fin cfg1.W) : (pdats m 1 c).arrAt w cfg1.N = (fun b : Ref sig .tc => W9 m c b) (Pipeline.arrRef spec1 w) := by
  match w with
  | ⟨0, _⟩ => exact ((dat1 (VR8 m) c).arrAt_in 0 rfl _).trans ((A_eq1 (VR8 m) c 0).trans (Function.update_of_ne (StableHlo.devRef_ne_of_ne (by decide)) _ _).symm)
  | ⟨1, _⟩ => exact ((dat1 (VR8 m) c).arrAt_in 1 rfl _).trans ((A_eq1 (VR8 m) c 1).trans (Function.update_of_ne (StableHlo.devRef_ne_of_ne (by decide)) _ _).symm)
  | ⟨2, _⟩ => exact ((dat1 (VR8 m) c).arrAt_in 2 rfl _).trans ((A_eq1 (VR8 m) c 2).trans (Function.update_of_ne (StableHlo.devRef_ne_of_ne (by decide)) _ _).symm)
  | ⟨3, _⟩ => exact ((dat1 (VR8 m) c).arrAt_in 3 rfl _).trans ((A_eq1 (VR8 m) c 3).trans (Function.update_of_ne (StableHlo.devRef_ne_of_ne (by decide)) _ _).symm)
  | ⟨4, _⟩ => exact ((dat1 (VR8 m) c).arrAt_in 4 rfl _).trans ((A_eq1 (VR8 m) c 4).trans (Function.update_of_ne (StableHlo.devRef_ne_of_ne (by decide)) _ _).symm)
  | ⟨5, _⟩ => exact (Function.update_self (Proc.devRef .tc main_v11 : DevRef τ sig) (X1 m c) (W8 m c)).symm
theorem hrest1 (c : Dev nD) : ∀ b, b ∉ Finset.univ.image (Pipeline.arrRef spec1) → (fun b : Ref sig .tc => W9 m c b) b = VR8 m c b := fun b hb =>
  Function.update_of_ne (StableHlo.devRef_ne_of_ne (fun e => hb (Finset.mem_image.mpr ⟨5, Finset.mem_univ _, e.symm⟩)) : (Proc.devRef .tc b : DevRef τ sig) ≠ Proc.devRef .tc main_v11) _ _

set_option backward.isDefEq.respectTransparency.types false in
/-- Region 0 takes the buffers from `V7` to `W8`, -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR7 m) c).loose
  hwaits := Pipeline.hwaits_of_owed_zero _ _ _ _ L lv 0 fun _ _ => rfl
  pre c := iprop(StableHlo.held (c : Thread nD τ) (Pipeline.ucRefs τ sig) (Gen.V7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (VR7 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VR7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VR7 m) c)
    unfold Pipeline.ΦA
    iintro ⟨Hp, -, Hr⟩
    isplitl [Hr]; · iexact Hr
    iexact Hp
  hout c := by
    rw [Pipeline.ownSems0_none]
    refine (hout0 (VR7 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VR7 m c) (VR8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- and region 1 from `W8` to `W9`. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR8 m) c).loose
  hwaits := Pipeline.hwaits_of_owed_zero _ _ _ _ L lv 1 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec1 c (VR8 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VR8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VR8 m) c)
    unfold Pipeline.ΦA
    iintro ⟨Hp, -, Hr⟩
    isplitl [Hr]; · iexact Hr
    iexact Hp
  hout c := by
    rw [Pipeline.ownSems0_none]
    refine (hout1 (VR8 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VR8 m c) (fun b : Ref sig .tc => W9 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.Fr.Run.lean ====
import proofs.«407643_j28157805593244_2_alg».proof.Proof.Fr.Regs
import proofs.«407643_j28157805593244_2_alg».proof.Proof.Fr.RunCond

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V10 m (outs m) c b) :=
  GenP.run_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => by rw [V8_val]; exact .rfl)
    (R1 := reg1 m) (hpre1 := fun c => by rw [V8_val]; exact .rfl) (hpost1 := fun c => by rw [V9_val]; exact .rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run read at the result array and the arguments: no host stretch writes an argument and no region may change one. -/
theorem run_result : θ_run defs (onTc (τ := τ) (main (F := F))) ⟨m, fun _ => 0, ρ⟩ (fun r => ∀ c : Dev nD,
      r.2.mem ((c.tc : Thread nD τ).loc main_v12) = Gen.V10 m (outs m) c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v12 (by decide)),
     (h c _ (mem_uc main_arg0 (by decide))).trans (Gen.V10_main_arg0 m (outs m) c),
     (h c _ (mem_uc main_arg1 (by decide))).trans (Gen.V10_main_arg1 m (outs m) c),
     (h c _ (mem_uc main_arg2 (by decide))).trans (Gen.V10_main_arg2 m (outs m) c),
     (h c _ (mem_uc main_arg3 (by decide))).trans (Gen.V10_main_arg3 m (outs m) c),
     (h c _ (mem_uc main_arg4 (by decide))).trans (Gen.V10_main_arg4 m (outs m) c),
     (h c _ (mem_uc main_arg5 (by decide))).trans (Gen.V10_main_arg5 m (outs m) c)⟩) (run_all m ρ)

end Cert.KernelIdeal.Fr

end
-- ==== Proof.FrB.R0Shared.lean ====
import proofs.«407643_j28157805593244_2_alg».proof.Proof.Gen.Kernel.Launch
import proofs.«407643_j28157805593244_2_alg».proof.Proof.Gen.Kernel.Skeleton
import proofs.«407643_j28157805593244_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body resets its accumulator at the first step of the reduction axis -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

/-- and stores the output at its last step. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

theorem idle0_out (i : grid0.Coords) (h : ¬cond0_1 i) : cfg0.idle 3 i = true := by
  show (!(k0_cond2 i == 1#1)) = true
  rw [Bool.not_eq_true', beq_eq_false_iff_ne]; exact h
theorem live0_out (i : grid0.Coords) (h : cond0_1 i) : cfg0.idle 3 i = false := by
  show (!(k0_cond2 i == 1#1)) = false
  rw [Bool.not_eq_false', beq_iff_eq]; exact h
theorem noFlush0_out (t : Fin cfg0.N) (h : ¬cond0_1 (grid0.coords t)) : (cfg0.win 3).flush t = false :=
  Bool.eq_false_iff.mpr fun hf => h ((hcond0_1 t).mpr ((flush0_3 t).mp hf))

abbrev ms0_0 (t : Fin cfg0.N) : Memref sig .tc .vmem S2048x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
/-- The accumulator. -/
abbrev scM0_0 : Memref sig .tc .vmem S2048x128 .f32 := Memref.whole cc0_scratch0

theorem hz0 : (![0, 0] : Fin 2 → Nat) = fun _ => 0 := funext fun a => by fin_cases a <;> rfl

def rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄) = iprop(iprop((∃ d, owns (c : Thread nD τ) scM0_0 fullShare d) ∗ rest0 (F := F) c) ∗ (∃ r, prngReg c r)) := by
  unfold Pipeline.ΦA rest0
  rw [Pipeline.scopedRest_split_of_list spec0 c [cc0_scratch0] (by decide) (by decide)]
  simp only [scM0_0, owns_whole]; try rfl

end Cert.Kernel.Fr

end
-- ==== Proof.FrB.R0Run.lean ====
import proofs.«407643_j28157805593244_2_alg».proof.Proof.FrB.R0Shared
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S2048x1 .i32) (harg2 : arg2.IsWhole) (arg3 : Memref sig .tc .vmem S2048x128 .bf16) (harg3 : arg3.IsWhole) (arg4 : Memref sig .tc .vmem S1x2048 .i32) (harg4 : arg4.IsWhole) (arg5 : Memref sig .tc .vmem S2048x128 .f32) (harg5 : arg5.IsWhole) (arg6 : Memref sig .tc .vmem S2048x128 .f32) (harg6 : arg6.IsWhole)
  (x0 : Vec F S2048x1 .i32) (x1 : Vec F S2048x128 .bf16) (x2 : Vec F S1x2048 .i32) (xo xs : Vec F S2048x128 .f32)

/-- What the body leaves in the scratch found at `xs`: the update of the zero payload where the reset is taken, of `xs` elsewhere. -/
abbrev upd0 : Vec F S2048x128 .f32 := k0_pay2 i x0 x2 x1 (if cond0_0 i then k0_pay1 else xs)

set_option maxHeartbeats 1000000 in
/-- The body keeps the inputs, updates the scratch, and where the second condition holds stores the updated scratch into the output. -/
theorem run0 (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2 ∗ (∃ d, ⌜(cond0_1 i → d = upd0 i x0 x1 x2 xs) ∧ (¬cond0_1 i → d = xo)⌝ ∗ owns (c : Thread nD τ) arg5 fullShare d) ∗ owns (c : Thread nD τ) arg6 fullShare (upd0 i x0 x1 x2 xs)) -∗ K ⟨⟩))
      ⊢ wp frame (wpE (defs₀ (F := F)) Variants.none c none) E (cc0__gather_kernel i arg2 harg2 arg3 harg3 arg4 harg4 arg5 harg5 arg6 harg6) K := by
  unfold upd0
  by_cases hc0 : cond0_0 i <;> by_cases hc1 : cond0_1 i
  all_goals first | rw [if_pos hc0] | rw [if_neg hc0]
  all_goals
    simp only [cc0__gather_kernel_eq_skeleton]; unfold cc0__gather_kernel_skel owns
    iintro ⟨⟨%f0, %hf0, H0⟩, ⟨%f1, %hf1, H1⟩, ⟨%f2, %hf2, H2⟩, ⟨%ff, %hff, HO⟩, ⟨%fs, %hfs, HS⟩, Hk⟩
    obtain rfl := harg2.eq_unread hf0; obtain rfl := harg3.eq_unread hf1; obtain rfl := harg4.eq_unread hf2; obtain rfl := harg5.eq_unread hff; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; swap
      · iexists _; isplitr; swap; · iexact HO
        ipureintro; rfl
      ipureintro
      first
      | exact ⟨fun h => absurd h hc1, fun _ => harg5.read_unread _⟩
      | refine ⟨fun _ => ?_, fun h => absurd hc1 h⟩
        rw [View.read_writes_eq_canon _ _ _ (View.cover_of_tiledL _ S2048x128.size (by sl_kernel_rfl))]
        try sl_unfold_words
        rw [View.canon_cons_unit_zero (S := S2048x128) hz0]
        simp only [View.readCov_cons_toLoadRect, View.readAt_eq_ld, harg2.read_unread, harg3.read_unread, harg4.read_unread, harg6.read_unread, View.ld_unit_zero (S := S2048x1) hz0, View.ld_unit_zero (S := S1x2048) hz0, View.ld_unit_zero (S := S2048x128) hz0]
    iexists _; isplitr; swap; · iexact HS
    ipureintro
    rw [View.read_writes_eq_canon _ _ _ (View.cover_of_tiledL _ S2048x128.size (by sl_kernel_rfl))]
    try sl_unfold_words
    rw [View.canon_cons_unit_zero (S := S2048x128) hz0]
    simp only [View.readCov_cons_toLoadRect, View.readAt_eq_ld, harg2.read_unread, harg3.read_unread, harg4.read_unread, harg6.read_unread, View.ld_unit_zero (S := S2048x1) hz0, View.ld_unit_zero (S := S1x2048) hz0, View.ld_unit_zero (S := S2048x128) hz0]

end Cert.Kernel.Fr

end
-- ==== Proof.FrB.R0.lean ====
import proofs.«407643_j28157805593244_2_alg».proof.Proof.FrB.R0Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's update at point `t`, by the point's blocks, of an accumulator found at `xs`. -/
abbrev step0 (c : Dev nD) (t : Fin cfg0.N) (xs : Vec F S2048x128 .f32) : Vec F S2048x128 .f32 :=
  upd0 (grid0.coords t) (iblk0 V c 0 t) (iblk0 V c 1 t) (iblk0 V c 2 t) xs

/-- The accumulator after point `n`: the first point updates the zero payload, every other what the point before left. -/
def sc0 (c : Dev nD) : (n : ℕ) → n < cfg0.N → Vec F S2048x128 .f32
  | 0, h => step0 V c ⟨0, h⟩ k0_pay1
  | n + 1, h => step0 V c ⟨n + 1, h⟩ (sc0 c n (Nat.lt_of_succ_lt h))

/-- What the body stores into the output (where it stores) and the accumulator after point `n`. -/
def outsAt0 (c : Dev nD) (n : ℕ) (h : n < cfg0.N) : Vec F S2048x128 .f32 × Vec F S2048x128 .f32 :=
  (if cond0_1 (grid0.coords ⟨n, h⟩) then sc0 V c n h else k0_pay1, sc0 V c n h)

/-- A point's update of what the point before left is what the point leaves: the first point resets. -/
theorem sc0_step (c : Dev nD) (t : Fin cfg0.N) (xs : Vec F S2048x128 .f32) (hxs : ∀ h, t.val ≠ 0 → xs = sc0 V c (t.val - 1) h) :
    step0 V c t xs = sc0 V c t.val t.isLt := by
  obtain ⟨n, hn⟩ := t
  cases n with
  | zero =>
    have hc : cond0_0 (grid0.coords ⟨0, hn⟩) := (hcond0_0 _).mpr rfl
    show k0_pay2 _ _ _ _ (if cond0_0 (grid0.coords ⟨0, hn⟩) then k0_pay1 else xs) = k0_pay2 _ _ _ _ (if cond0_0 (grid0.coords ⟨0, hn⟩) then k0_pay1 else k0_pay1)
    rw [if_pos hc, if_pos hc]
  | succ n => rw [hxs (by omega) (Nat.succ_ne_zero n)]; rfl

/-- The region invariant before position `n`: the class's, with the accumulator (after the first point) at what the point before left. -/
def PhiS0 (c : Dev nD) (n : ℕ) : sProp 𝕄 :=
  iprop(iprop((∃ xs, ⌜∀ h, n ≠ 0 → xs = sc0 V c (n - 1) h⌝ ∗ owns (c : Thread nD τ) scM0_0 fullShare xs) ∗ rest0 (F := F) c) ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val
  q _ := fullShare
  owed _ := 0

theorem A_eq0 (c : Dev nD) (w : Fin cfg0.W) : (dat0 V c).A w = V c (Pipeline.arrRef spec0 w) := rfl
theorem after0_3 (c : Dev nD) (t : Fin cfg0.N) : (dat0 V c).after 3 t = (outsAt0 V c t.val t.isLt).1 := rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

theorem live0 (c : Dev nD) (t : Fin cfg0.N) (w : Fin cfg0.W) (h : cfg0.idle w (grid0.coords t) = false) :
    (dat0 V c).leavesExact w t = owns (c : Thread nD τ) ((cfg0.win w).stage (cfg0.slots t w)) fullShare ((dat0 V c).after w t) := by
  unfold Dat.leavesExact; rw [h]

/-- The body at any point takes the accumulator at what the point before left (at anything before the first point) and leaves it updated. -/
theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d)))
    ⊢ wp frame (wpE (defs₀ (F := F)) Variants.none c none) Set.univ (bodyAt0 t) (fun _ => iprop((dat0 V c).Φ t.succ ∗ (dat0 V c).owesAt () t.succ
      ∗ (dat0 V c).leavesExact 0 t
      ∗ (dat0 V c).leavesExact 1 t
      ∗ (dat0 V c).leavesExact 2 t
      ∗ (dat0 V c).leavesExact 3 t))
  unfold bodyAt0
  simp only [before0_0, before0_1, before0_2]
  rw [show (dat0 V c).owesAt () t.succ = (dat0 V c).owesAt () t.castSucc from rfl,
    show (dat0 V c).Φ t.succ = PhiS0 V c (t.val + 1) from rfl, show (dat0 V c).Φ t.castSucc = PhiS0 V c t.val from rfl,
    live0 V c t 0 rfl, live0 V c t 1 rfl, live0 V c t 2 rfl]
  unfold PhiS0
  by_cases hc1 : cond0_1 (grid0.coords t)
  on_goal 1 => rw [live0 V c t 3 (live0_out _ hc1), after0_3, show (outsAt0 V c t.val t.isLt).1 = sc0 V c t.val t.isLt from if_pos hc1]
  on_goal 2 => rw [Dat.leavesExact_idle (dat0 V c) 3 t (idle0_out _ hc1) (noFlush0_out t hc1)]
  all_goals
    iintro ⟨⟨⟨⟨%xs, %hxs, HS⟩, Hr⟩, Hg⟩, Ho, ⟨%d0, H0⟩, ⟨%d1, H1⟩, ⟨%d2, H2⟩, ⟨%d3, H3⟩⟩
    try rw [← sc0_step V c t xs hxs]
    iapply (run0 c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t) (iblk0 V c 2 t) _ xs Set.univ _)
    isplitl [H0]; · iexact H0
    isplitl [H1]; · iexact H1
    isplitl [H2]; · iexact H2
    isplitl [H3]; · iexact H3
    isplitl [HS]; · iexact HS
    iintro ⟨H0, H1, H2, ⟨%e, %he, H3⟩, HS⟩
    isplitl [HS Hr Hg]
    · isplitl [HS Hr]
      · isplitl [HS]
        · iexists _; isplitr; swap; · iexact HS
          ipureintro; exact fun _ _ => sc0_step V c t xs hxs
        iexact Hr
      iexact Hg
    isplitl [Ho]; · iexact Ho
    isplitl [H0]; · iexact H0
    isplitl [H1]; · iexact H1
    isplitl [H2]; · iexact H2
    first
    | obtain rfl := he.1 hc1; iexact H3
    | obtain rfl := he.2 hc1; iexists _; iexact H3

/-- The invariant holds before the first point, -/
theorem hin0 (c : Dev nD) : Pipeline.ΦA spec0 c ⊢ (dat0 V c).Φ 0 := by
  rw [PhiA0_eq]
  show _ ⊢ PhiS0 V c 0
  unfold PhiS0
  iintro ⟨⟨⟨%d, HS⟩, Hr⟩, Hg⟩
  isplitl [HS Hr]
  · isplitl [HS]
    · iexists d; isplitr; · ipureintro; exact fun _ h => absurd rfl h
      iexact HS
    iexact Hr
  iexact Hg

/-- and after the last point the accumulator's contents are forgotten. -/
theorem hout0 (c : Dev nD) : (dat0 V c).Φ (Fin.last cfg0.N) ⊢ Pipeline.ΦA spec0 c := by
  rw [PhiA0_eq]
  show PhiS0 V c _ ⊢ _
  unfold PhiS0
  iintro ⟨⟨⟨%d, -, HS⟩, Hr⟩, Hg⟩
  isplitl [HS Hr]
  · isplitl [HS]
    · iexists d; iexact HS
    iexact Hr
  iexact Hg

/-- After a first step of the reduction axis the accumulator holds the update, by the point's blocks, of the zero payload. -/
theorem sc0_first (c : Dev nD) (t : Fin cfg0.N) (h : t.val % 25 = 0) :
    (outsAt0 V c t.val t.isLt).2 = k0_pay2 (grid0.coords t) (iblk0 V c 0 t) (iblk0 V c 2 t) (iblk0 V c 1 t) (k0_pay1 (F := F)) := by
  obtain ⟨n, hn⟩ := t
  cases n <;> exact congrArg (k0_pay2 _ _ _ _) (if_pos ((hcond0_0 _).mpr h))

/-- After any other step it holds the update, by the point's blocks, of what the point before left. -/
theorem sc0_next (c : Dev nD) (t : Fin cfg0.N) (h : ¬ t.val % 25 = 0) :
    (outsAt0 V c t.val t.isLt).2 = k0_pay2 (grid0.coords t) (iblk0 V c 0 t) (iblk0 V c 2 t) (iblk0 V c 1 t)
      (outsAt0 V c (t.val - 1) (Nat.lt_of_le_of_lt (Nat.sub_le _ _) t.isLt)).2 := by
  obtain ⟨n, hn⟩ := t
  cases n with
  | zero => exact absurd (Nat.zero_mod _) h
  | succ n => exact congrArg (k0_pay2 _ _ _ _) (if_neg fun hc => h ((hcond0_0 _).mp hc))

/-- At a last step of the reduction axis the body stores into the output what the accumulator holds. -/
theorem out0_last (c : Dev nD) (t : Fin cfg0.N) (h : t.val % 25 = 24) :
    (outsAt0 V c t.val t.isLt).1 = (outsAt0 V c t.val t.isLt).2 := if_pos ((hcond0_1 t).mpr h)

end Cert.Kernel.Fr

end
-- ==== Proof.FrB.R1Shared.lean ====
import proofs.«407643_j28157805593244_2_alg».proof.Proof.Gen.Kernel.Launch
import proofs.«407643_j28157805593244_2_alg».proof.Proof.Gen.Kernel.Skeleton
import proofs.«407643_j28157805593244_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body resets its accumulator at the first step of the reduction axis -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 391 = 0 :=
  (by decide +kernel : ∀ t : Fin grid1.N, cond1_0 (grid1.coords t) ↔ t.val % 391 = 0)

/-- and stores the output at its last step. -/
abbrev cond1_1 (i : grid1.Coords) : Prop := k1_cond2 i = 1#1
theorem hcond1_1 : ∀ t : Fin cfg1.N, cond1_1 (grid1.coords t) ↔ t.val % 391 = 390 :=
  (by decide +kernel : ∀ t : Fin grid1.N, cond1_1 (grid1.coords t) ↔ t.val % 391 = 390)

theorem idle1_out (i : grid1.Coords) (h : ¬cond1_1 i) : cfg1.idle 5 i = true := by
  show (!(k1_cond2 i == 1#1)) = true
  rw [Bool.not_eq_true', beq_eq_false_iff_ne]; exact h
theorem live1_out (i : grid1.Coords) (h : cond1_1 i) : cfg1.idle 5 i = false := by
  show (!(k1_cond2 i == 1#1)) = false
  rw [Bool.not_eq_false', beq_iff_eq]; exact h
theorem noFlush1_out (t : Fin cfg1.N) (h : ¬cond1_1 (grid1.coords t)) : (cfg1.win 5).flush t = false :=
  Bool.eq_false_iff.mpr fun hf => h ((hcond1_1 t).mpr ((flush1_5 t).mp hf))

abbrev ms1_0 (t : Fin cfg1.N) : Memref sig .tc .vmem S1x2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x128 .f32 := win1_5.stage (cfg1.slots t 5)
abbrev hs1_5 (t : Fin cfg1.N) : (ms1_5 t).IsWhole := hstage1_5 ((cfg1.slots t 5).cast nbuf1_5)
/-- The accumulator. -/
abbrev scM1_0 : Memref sig .tc .vmem S2048x128 .f32 := Memref.whole cc1_scratch0

theorem zeroOff1_2 : (![0, 0] : Fin 2 → Nat) = fun _ => 0 := funext fun a => by fin_cases a <;> rfl
theorem zeroOff1_1 : (![0] : Fin 1 → Nat) = fun _ => 0 := funext fun a => by fin_cases a; rfl

def rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄) = iprop(iprop((∃ d, owns (c : Thread nD τ) scM1_0 fullShare d) ∗ rest1 (F := F) c) ∗ (∃ r, prngReg c r)) := by
  unfold Pipeline.ΦA rest1
  rw [Pipeline.scopedRest_split_of_list spec1 c [cc1_scratch0] (by decide) (by decide)]
  simp only [scM1_0, owns_whole]; try rfl

end Cert.Kernel.Fr

end
-- ==== Proof.FrB.R1Run.lean ====
import proofs.«407643_j28157805593244_2_alg».proof.Proof.FrB.R1Shared
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S1x2048 .i32) (harg2 : arg2.IsWhole) (arg3 : Memref sig .tc .vmem S2048x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S2048x1 .i32) (harg6 : arg6.IsWhole) (arg7 : Memref sig .tc .vmem S2048x128 .f32) (harg7 : arg7.IsWhole) (arg8 : Memref sig .tc .vmem S2048x128 .f32) (harg8 : arg8.IsWhole)
  (x0 : Vec F S1x2048 .i32) (x1 : Vec F S2048x128 .f32) (x2 : Vec F S128x128 .f32) (x3 : Vec F S128 .f32) (x4 : Vec F S2048x1 .i32) (xo xs : Vec F S2048x128 .f32)

/-- What the body leaves in the accumulator found at `xs`: the step's payload over the zero block where the reset is taken, over `xs` elsewhere. -/
abbrev upd1 : Vec F S2048x128 .f32 := k1_pay2 i x0 x4 x1 (if cond1_0 i then k1_pay1 else xs)

set_option maxHeartbeats 1000000 in
/-- The body keeps the inputs, updates the accumulator, and where the second conditional holds stores the final payload of the updated accumulator, the weights and the bias into the output. -/
theorem run1 (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, ⌜(cond1_1 i → d = k1_pay3 (upd1 i x0 x1 x4 xs) x2 x3) ∧ (¬cond1_1 i → d = xo)⌝ ∗ owns (c : Thread nD τ) arg7 fullShare d) ∗ owns (c : Thread nD τ) arg8 fullShare (upd1 i x0 x1 x4 xs)) -∗ K ⟨⟩))
      ⊢ wp frame (wpE (defs₀ (F := F)) Variants.none c none) E (cc1__scatter_kernel i arg2 harg2 arg3 harg3 arg4 harg4 arg5 harg5 arg6 harg6 arg7 harg7 arg8 harg8) K := by
  unfold upd1
  by_cases hc0 : cond1_0 i <;> by_cases hc1 : cond1_1 i
  all_goals first | rw [if_pos hc0] | rw [if_neg hc0]
  all_goals
    simp only [cc1__scatter_kernel_eq_skeleton]; unfold cc1__scatter_kernel_skel owns
    iintro ⟨⟨%f0, %hf0, H0⟩, ⟨%f1, %hf1, H1⟩, ⟨%f2, %hf2, H2⟩, ⟨%f3, %hf3, H3⟩, ⟨%f4, %hf4, H4⟩, ⟨%ff, %hff, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hff; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; swap
      · iexists _; isplitr; swap; · iexact HO
        ipureintro; rfl
      ipureintro
      first
      | exact ⟨fun h => absurd h hc1, fun _ => harg7.read_unread _⟩
      | refine ⟨fun _ => ?_, fun h => absurd hc1 h⟩
        rw [View.read_writes_eq_canon _ _ _ (View.cover_of_tiledL _ S2048x128.size (by sl_kernel_rfl))]
        try sl_unfold_words
        rw [View.canon_cons_unit_zero (S := S2048x128) zeroOff1_2]
        simp only [View.readCov_cons_toLoadRect, View.readAt_eq_ld, harg2.read_unread, harg3.read_unread, harg4.read_unread, harg5.read_unread, harg6.read_unread, harg8.read_unread, View.ld_unit_zero (S := S1x2048) zeroOff1_2, View.ld_unit_zero (S := S2048x1) zeroOff1_2, View.ld_unit_zero (S := S2048x128) zeroOff1_2, View.ld_unit_zero (S := S128x128) zeroOff1_2, View.ld_unit_zero (S := S128) zeroOff1_1]
    iexists _; isplitr; swap; · iexact HS
    ipureintro
    rw [View.read_writes_eq_canon _ _ _ (View.cover_of_tiledL _ S2048x128.size (by sl_kernel_rfl))]
    try sl_unfold_words
    rw [View.canon_cons_unit_zero (S := S2048x128) zeroOff1_2]
    simp only [View.readCov_cons_toLoadRect, View.readAt_eq_ld, harg2.read_unread, harg3.read_unread, harg4.read_unread, harg5.read_unread, harg6.read_unread, harg8.read_unread, View.ld_unit_zero (S := S1x2048) zeroOff1_2, View.ld_unit_zero (S := S2048x1) zeroOff1_2, View.ld_unit_zero (S := S2048x128) zeroOff1_2, View.ld_unit_zero (S := S128x128) zeroOff1_2, View.ld_unit_zero (S := S128) zeroOff1_1]

end Cert.Kernel.Fr

end
-- ==== Proof.FrB.R1.lean ====
import proofs.«407643_j28157805593244_2_alg».proof.Proof.FrB.R1Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's update at point `t`, by the point's blocks, of an accumulator found at `xs`. -/
abbrev step1 (c : Dev nD) (t : Fin cfg1.N) (xs : Vec F S2048x128 .f32) : Vec F S2048x128 .f32 :=
  upd1 (grid1.coords t) (iblk1 V c 0 t) (iblk1 V c 1 t) (iblk1 V c 4 t) xs

/-- The accumulator after point `n`: the first point updates the zero payload, every other what the point before left. -/
def sc1 (c : Dev nD) : (n : ℕ) → n < cfg1.N → Vec F S2048x128 .f32
  | 0, h => step1 V c ⟨0, h⟩ k1_pay1
  | n + 1, h => step1 V c ⟨n + 1, h⟩ (sc1 c n (Nat.lt_of_succ_lt h))

/-- What the body stores into the output (where it stores) and the accumulator after point `n`. -/
def outsAt1 (c : Dev nD) (n : ℕ) (h : n < cfg1.N) : Vec F S2048x128 .f32 × Vec F S2048x128 .f32 :=
  (if cond1_1 (grid1.coords ⟨n, h⟩) then k1_pay3 (sc1 V c n h) (iblk1 V c 2 ⟨n, h⟩) (iblk1 V c 3 ⟨n, h⟩) else k1_pay1, sc1 V c n h)

/-- A point's update of what the point before left is what the point leaves: the first point resets. -/
theorem sc1_step (c : Dev nD) (t : Fin cfg1.N) (xs : Vec F S2048x128 .f32) (hxs : ∀ h, t.val ≠ 0 → xs = sc1 V c (t.val - 1) h) :
    step1 V c t xs = sc1 V c t.val t.isLt := by
  obtain ⟨n, hn⟩ := t
  cases n with
  | zero =>
    have hc : cond1_0 (grid1.coords ⟨0, hn⟩) := (hcond1_0 _).mpr rfl
    show k1_pay2 _ _ _ _ (if cond1_0 (grid1.coords ⟨0, hn⟩) then k1_pay1 else xs) = k1_pay2 _ _ _ _ (if cond1_0 (grid1.coords ⟨0, hn⟩) then k1_pay1 else k1_pay1)
    rw [if_pos hc, if_pos hc]
  | succ n => rw [hxs (by omega) (Nat.succ_ne_zero n)]; rfl

/-- The region invariant before position `n`: the class's, with the accumulator (after the first point) at what the point before left. -/
def PhiS1 (c : Dev nD) (n : ℕ) : sProp 𝕄 :=
  iprop(iprop((∃ xs, ⌜∀ h, n ≠ 0 → xs = sc1 V c (n - 1) h⌝ ∗ owns (c : Thread nD τ) scM1_0 fullShare xs) ∗ rest1 (F := F) c) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val
  q _ := fullShare
  owed _ := 0

theorem A_eq1 (c : Dev nD) (w : Fin cfg1.W) : (dat1 V c).A w = V c (Pipeline.arrRef spec1 w) := rfl
theorem after1_5 (c : Dev nD) (t : Fin cfg1.N) : (dat1 V c).after 5 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

theorem live1 (c : Dev nD) (t : Fin cfg1.N) (w : Fin cfg1.W) (h : cfg1.idle w (grid1.coords t) = false) :
    (dat1 V c).leavesExact w t = owns (c : Thread nD τ) ((cfg1.win w).stage (cfg1.slots t w)) fullShare ((dat1 V c).after w t) := by
  unfold Dat.leavesExact; rw [h]

/-- The body at any point takes the accumulator at what the point before left (at anything before the first point) and leaves it updated. -/
theorem body_obligation1 (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d))
      ∗ (∃ d, owns (c : Thread nD τ) (ms1_5 t) fullShare ((dat1 V c).before 5 t d)))
    ⊢ wp frame (wpE (defs₀ (F := F)) Variants.none c none) Set.univ (bodyAt1 t) (fun _ => iprop((dat1 V c).Φ t.succ ∗ (dat1 V c).owesAt () t.succ
      ∗ (dat1 V c).leavesExact 0 t
      ∗ (dat1 V c).leavesExact 1 t
      ∗ (dat1 V c).leavesExact 2 t
      ∗ (dat1 V c).leavesExact 3 t
      ∗ (dat1 V c).leavesExact 4 t
      ∗ (dat1 V c).leavesExact 5 t))
  unfold bodyAt1
  simp only [before1_0, before1_1, before1_2, before1_3, before1_4]
  rw [show (dat1 V c).owesAt () t.succ = (dat1 V c).owesAt () t.castSucc from rfl,
    show (dat1 V c).Φ t.succ = PhiS1 V c (t.val + 1) from rfl, show (dat1 V c).Φ t.castSucc = PhiS1 V c t.val from rfl,
    live1 V c t 0 rfl, live1 V c t 1 rfl, live1 V c t 2 rfl, live1 V c t 3 rfl, live1 V c t 4 rfl]
  unfold PhiS1
  by_cases hc1 : cond1_1 (grid1.coords t)
  on_goal 1 => rw [live1 V c t 5 (live1_out _ hc1), after1_5, show (outsAt1 V c t.val t.isLt).1 = k1_pay3 (sc1 V c t.val t.isLt) (iblk1 V c 2 t) (iblk1 V c 3 t) from if_pos hc1]
  on_goal 2 => rw [Dat.leavesExact_idle (dat1 V c) 5 t (idle1_out _ hc1) (noFlush1_out t hc1)]
  all_goals
    iintro ⟨⟨⟨⟨%xs, %hxs, HS⟩, Hr⟩, Hg⟩, Ho, ⟨%d0, H0⟩, ⟨%d1, H1⟩, ⟨%d2, H2⟩, ⟨%d3, H3⟩, ⟨%d4, H4⟩, ⟨%d5, H5⟩⟩
    try rw [← sc1_step V c t xs hxs]
    iapply (run1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iblk1 V c 0 t) (iblk1 V c 1 t) (iblk1 V c 2 t) (iblk1 V c 3 t) (iblk1 V c 4 t) _ xs Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, ⟨%e, %he, H5⟩, HS⟩
    isplitl [HS Hr Hg]
    · isplitl [HS Hr]
      · isplitl [HS]
        · iexists _; isplitr; swap; · iexact HS
          ipureintro; exact fun _ _ => sc1_step V c t xs hxs
        iexact Hr
      iexact Hg
    isplitl [Ho]; · iexact Ho
    isplitl [H0]; · iexact H0
    isplitl [H1]; · iexact H1
    isplitl [H2]; · iexact H2
    isplitl [H3]; · iexact H3
    isplitl [H4]; · iexact H4
    first
    | obtain rfl := he.1 hc1; iexact H5
    | obtain rfl := he.2 hc1; iexists _; iexact H5

/-- The invariant holds before the first point, -/
theorem hin1 (c : Dev nD) : Pipeline.ΦA spec1 c ⊢ (dat1 V c).Φ 0 := by
  rw [PhiA1_eq]
  show _ ⊢ PhiS1 V c 0
  unfold PhiS1
  iintro ⟨⟨⟨%d, HS⟩, Hr⟩, Hg⟩
  isplitl [HS Hr]
  · isplitl [HS]
    · iexists d; isplitr; · ipureintro; exact fun _ h => absurd rfl h
      iexact HS
    iexact Hr
  iexact Hg

/-- and after the last point the accumulator's contents are forgotten. -/
theorem hout1 (c : Dev nD) : (dat1 V c).Φ (Fin.last cfg1.N) ⊢ Pipeline.ΦA spec1 c := by
  rw [PhiA1_eq]
  show PhiS1 V c _ ⊢ _
  unfold PhiS1
  iintro ⟨⟨⟨%d, -, HS⟩, Hr⟩, Hg⟩
  isplitl [HS Hr]
  · isplitl [HS]
    · iexists d; iexact HS
    iexact Hr
  iexact Hg

/-- After a first step of the reduction axis the accumulator holds the update, by the point's blocks, of the zero payload. -/
theorem sc1_first (c : Dev nD) (t : Fin cfg1.N) (h : t.val % 391 = 0) :
    (outsAt1 V c t.val t.isLt).2 = k1_pay2 (grid1.coords t) (iblk1 V c 0 t) (iblk1 V c 4 t) (iblk1 V c 1 t) (k1_pay1 (F := F)) := by
  obtain ⟨n, hn⟩ := t
  cases n <;> exact congrArg (k1_pay2 _ _ _ _) (if_pos ((hcond1_0 _).mpr h))

/-- After any other step it holds the update, by the point's blocks, of what the point before left. -/
theorem sc1_next (c : Dev nD) (t : Fin cfg1.N) (h : ¬ t.val % 391 = 0) :
    (outsAt1 V c t.val t.isLt).2 = k1_pay2 (grid1.coords t) (iblk1 V c 0 t) (iblk1 V c 4 t) (iblk1 V c 1 t)
      (outsAt1 V c (t.val - 1) (Nat.lt_of_le_of_lt (Nat.sub_le _ _) t.isLt)).2 := by
  obtain ⟨n, hn⟩ := t
  cases n with
  | zero => exact absurd (Nat.zero_mod _) h
  | succ n => exact congrArg (k1_pay2 _ _ _ _) (if_neg fun hc => h ((hcond1_0 _).mp hc))

/-- At a last step the body stores into the output the final payload of the accumulator, the weights' block and the bias' block. -/
theorem out1_last (c : Dev nD) (t : Fin cfg1.N) (h : t.val % 391 = 390) :
    (outsAt1 V c t.val t.isLt).1 = k1_pay3 (outsAt1 V c t.val t.isLt).2 (iblk1 V c 2 t) (iblk1 V c 3 t) := if_pos ((hcond1_1 t).mpr h)

end Cert.Kernel.Fr

end
-- ==== Proof.FrB.Regs.lean ====
import proofs.«407643_j28157805593244_2_alg».proof.Proof.FrB.R0
import proofs.«407643_j28157805593244_2_alg».proof.Proof.FrB.R1
import proofs.«407643_j28157805593244_2_alg».proof.Proof.Gen.Kernel.Regions
import Idealize.ShloMosaic.Lib.Pipeline.RegionsLoop

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as region 0 finds them. -/
abbrev VR7 (c : Dev nD) (b : Ref sig .tc) : Buf (Elt F) ((c : Thread nD τ).loc b) := Gen.V7 m c b

/-- Region 0's output array after the region, and the valuation after it. -/
def X0 (c : Dev nD) : Buf (Elt F) ((c : Thread nD τ).loc main_v10) := (dat0 (VR7 m) c).arrAt 3 cfg0.N

abbrev W8 (c : Dev nD) : Valuation τ sig (Elt F) := Function.update (Gen.V7 m c) main_v10 (X0 m c)

abbrev VR8 (c : Dev nD) (b : Ref sig .tc) : Buf (Elt F) ((c : Thread nD τ).loc b) := W8 m c b

/-- The same for region 1. -/
def X1 (c : Dev nD) : Buf (Elt F) ((c : Thread nD τ).loc main_v11) := (dat1 (VR8 m) c).arrAt 5 cfg1.N

abbrev W9 (c : Dev nD) : Valuation τ sig (Elt F) := Function.update (W8 m c) main_v11 (X1 m c)

def outs : Gen.Outs (F := F) := fun _ r c =>
  Function.update (Function.update (fun r : Ref sig .tc => (Gen.V7 m c r : Buf (Elt F) ((c : Thread nD τ).loc r))) main_v10 (X0 m c)) main_v11 (X1 m c) r

theorem outs_v10 (J : ℕ) (c : Dev nD) : outs m J main_v10 c = X0 m c := by
  unfold outs
  rw [Function.update_of_ne (show (main_v10 : Ref sig .tc) ≠ main_v11 by decide), Function.update_self]
theorem outs_v11 (J : ℕ) (c : Dev nD) : outs m J main_v11 c = X1 m c := by
  unfold outs
  rw [Function.update_self]

theorem V8_val (c : Dev nD) : Gen.V8 m (outs m) c = W8 m c := by
  show Function.update (Gen.V7 m c) main_v10 (outs m 8 main_v10 c) = _
  rw [outs_v10]
theorem V9_val (c : Dev nD) : Gen.V9 m (outs m) c = W9 m c := by
  show Function.update (Gen.V8 m (outs m) c) main_v11 (outs m 9 main_v11 c) = _
  rw [outs_v11, V8_val]

def pdats : (p : Fin 2) → (c : Dev nD) → Dat τ (Elt F) Unit ℕ (UR sig nD τ) ℕ (cfgs p) c
  | ⟨0, _⟩ => fun c => dat0 (VR7 m) c
  | ⟨1, _⟩ => fun c => dat1 (VR8 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0 (c : Dev nD) (w : Fin cfg0.W) : (pdats m 0 c).arrAt w cfg0.N = VR8 m c (Pipeline.arrRef spec0 w) := by
  match w with
  | ⟨0, _⟩ => exact ((dat0 (VR7 m) c).arrAt_in 0 rfl _).trans ((A_eq0 (VR7 m) c 0).trans (Function.update_of_ne (StableHlo.devRef_ne_of_ne (by decide)) _ _).symm)
  | ⟨1, _⟩ => exact ((dat0 (VR7 m) c).arrAt_in 1 rfl _).trans ((A_eq0 (VR7 m) c 1).trans (Function.update_of_ne (StableHlo.devRef_ne_of_ne (by decide)) _ _).symm)
  | ⟨2, _⟩ => exact ((dat0 (VR7 m) c).arrAt_in 2 rfl _).trans ((A_eq0 (VR7 m) c 2).trans (Function.update_of_ne (StableHlo.devRef_ne_of_ne (by decide)) _ _).symm)
  | ⟨3, _⟩ => exact (Function.update_self (Proc.devRef .tc main_v10 : DevRef τ sig) (X0 m c) (Gen.V7 m c)).symm
theorem hrest0 (c : Dev nD) : ∀ b, b ∉ Finset.univ.image (Pipeline.arrRef spec0) → VR8 m c b = VR7 m c b := fun b hb =>
  Function.update_of_ne (StableHlo.devRef_ne_of_ne (fun e => hb (Finset.mem_image.mpr ⟨3, Finset.mem_univ _, e.symm⟩)) : (Proc.devRef .tc b : DevRef τ sig) ≠ Proc.devRef .tc main_v10) _ _

theorem hF1 (c : Dev nD) (w : Fin cfg1.W) : (pdats m 1 c).arrAt w cfg1.N = (fun b : Ref sig .tc => W9 m c b) (Pipeline.arrRef spec1 w) := by
  match w with
  | ⟨0, _⟩ => exact ((dat1 (VR8 m) c).arrAt_in 0 rfl _).trans ((A_eq1 (VR8 m) c 0).trans (Function.update_of_ne (StableHlo.devRef_ne_of_ne (by decide)) _ _).symm)
  | ⟨1, _⟩ => exact ((dat1 (VR8 m) c).arrAt_in 1 rfl _).trans ((A_eq1 (VR8 m) c 1).trans (Function.update_of_ne (StableHlo.devRef_ne_of_ne (by decide)) _ _).symm)
  | ⟨2, _⟩ => exact ((dat1 (VR8 m) c).arrAt_in 2 rfl _).trans ((A_eq1 (VR8 m) c 2).trans (Function.update_of_ne (StableHlo.devRef_ne_of_ne (by decide)) _ _).symm)
  | ⟨3, _⟩ => exact ((dat1 (VR8 m) c).arrAt_in 3 rfl _).trans ((A_eq1 (VR8 m) c 3).trans (Function.update_of_ne (StableHlo.devRef_ne_of_ne (by decide)) _ _).symm)
  | ⟨4, _⟩ => exact ((dat1 (VR8 m) c).arrAt_in 4 rfl _).trans ((A_eq1 (VR8 m) c 4).trans (Function.update_of_ne (StableHlo.devRef_ne_of_ne (by decide)) _ _).symm)
  | ⟨5, _⟩ => exact (Function.update_self (Proc.devRef .tc main_v11 : DevRef τ sig) (X1 m c) (W8 m c)).symm
theorem hrest1 (c : Dev nD) : ∀ b, b ∉ Finset.univ.image (Pipeline.arrRef spec1) → (fun b : Ref sig .tc => W9 m c b) b = VR8 m c b := fun b hb =>
  Function.update_of_ne (StableHlo.devRef_ne_of_ne (fun e => hb (Finset.mem_image.mpr ⟨5, Finset.mem_univ _, e.symm⟩)) : (Proc.devRef .tc b : DevRef τ sig) ≠ Proc.devRef .tc main_v11) _ _

set_option backward.isDefEq.respectTransparency.types false in
/-- Region 0 takes the buffers from `V7` to `W8`, -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR7 m) c).loose
  hwaits := Pipeline.hwaits_of_owed_zero _ _ _ _ L lv 0 fun _ _ => rfl
  pre c := iprop(StableHlo.held (c : Thread nD τ) (Pipeline.ucRefs τ sig) (Gen.V7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (VR7 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VR7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VR7 m) c)
    unfold Pipeline.ΦA
    iintro ⟨Hp, -, Hr⟩
    isplitl [Hr]; · iexact Hr
    iexact Hp
  hout c := by
    rw [Pipeline.ownSems0_none]
    refine (hout0 (VR7 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VR7 m c) (VR8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- and region 1 from `W8` to `W9`. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR8 m) c).loose
  hwaits := Pipeline.hwaits_of_owed_zero _ _ _ _ L lv 1 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec1 c (VR8 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VR8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VR8 m) c)
    unfold Pipeline.ΦA
    iintro ⟨Hp, -, Hr⟩
    isplitl [Hr]; · iexact Hr
    iexact Hp
  hout c := by
    rw [Pipeline.ownSems0_none]
    refine (hout1 (VR8 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VR8 m c) (fun b : Ref sig .tc => W9 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.FrB.Run.lean ====
import proofs.«407643_j28157805593244_2_alg».proof.Proof.FrB.Regs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame of the word-level program: the generated conditional frame at the two regions' segments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => by rw [V8_val]; exact .rfl)
    (R1 := reg1 m) (hpre1 := fun c => by rw [V8_val]; exact .rfl) (hpost1 := fun c => by rw [V9_val]; exact .rfl)

end Cert.Kernel.Fr

end
-- ==== Proof.Val.Host.lean ====
/- What the host operations before the first region leave: the index words and the feature table padded (words with -1, rows with zeros), two rows of lane numbers, and the arguments untouched; and the range of the source words read off the precondition. -/
import proofs.«407643_j28157805593244_2_alg».proof.Defs
import proofs.«407643_j28157805593244_2_alg».proof.Proof.Gen.KernelIdeal.Regions
import Idealize.ShloMosaic.Lib.StableHlo.Run
import Idealize.ShloMosaic.Lib.ReduceAll
import Idealize.ShloMosaic.Lib.KernelVsHost
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem

namespace HostAux

/-- A word that is signed-nonnegative and signed-below 50000 reads as a natural below 50000. -/
theorem toNat_lt_of_signed (w : BitVec 32) (h0 : IntOp.cmpi .sge w 0#32 = 1#1) (h1 : IntOp.cmpi .slt w 50000#32 = 1#1) :
    w.toNat < 50000 := by
  rw [IntOp.cmpi_sge] at h0
  rw [IntOp.cmpi_slt] at h1
  have z : (0#32 : BitVec 32).toInt = 0 := by decide
  have n : (50000#32 : BitVec 32).toInt = 50000 := by decide
  rw [z] at h0
  rw [n] at h1
  have hw := w.isLt
  unfold BitVec.toInt at h0 h1
  split at h0 <;> omega

theorem sitofp_zero_word : (FloatOps.sitofp (F := Ideal) .f32 (0#32 : BitVec 32) : EReal) = 0 := by
  show (((0#32 : BitVec 32).toInt : ℝ) : EReal) = 0
  rw [show (0#32 : BitVec 32).toInt = 0 by decide]
  simp

section AtIndex
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem pad_edges_apply (x : S800000.Idx → α) (v : S_.Idx → α) (hp : S800000.Pads (![0] : Fin 1 → Nat) ![768] ![0] S800768)
    (hu : 0 < S_.numel) (e : Fin 800768) :
    pad S800768 ![0] ![768] ![0] x v hp hu (ix1 e) = if h : e.val < 800000 then x (ix1 ⟨e.val, h⟩) else v (Shape.Idx.first hu) := by
  by_cases h : e.val < 800000
  · rw [dif_pos h]
    exact pad_apply_of_inside _ _ _ x v hp hu _ (ix1 (⟨e.val, h⟩ : Fin 800000)) (by
      intro a
      match a with
      | ⟨0, _⟩ => show e.val = 0 + e.val * (0 + 1); omega)
  · rw [dif_neg h]
    exact pad_apply_of_not_inside _ _ _ x v hp hu _ (0 : Fin 1) (by
      intro hin
      have e3 : (e.val - 0) / (0 + 1) < 800000 := hin.2.2
      omega)

theorem pad_nodes_apply (x : S50000x128.Idx → α) (v : S_.Idx → α)
    (hp : S50000x128.Pads (![0, 0] : Fin 2 → Nat) ![1200, 0] ![0, 0] S51200x128) (hu : 0 < S_.numel) (n : Fin 51200) (f : Fin 128) :
    pad S51200x128 ![0, 0] ![1200, 0] ![0, 0] x v hp hu (ix2 n f)
      = if h : n.val < 50000 then x (ix2 ⟨n.val, h⟩ f) else v (Shape.Idx.first hu) := by
  by_cases h : n.val < 50000
  · rw [dif_pos h]
    exact pad_apply_of_inside _ _ _ x v hp hu _ (ix2 (⟨n.val, h⟩ : Fin 50000) f) (by
      intro a
      match a with
      | ⟨0, _⟩ => show n.val = 0 + n.val * (0 + 1); omega
      | ⟨1, _⟩ => show f.val = 0 + f.val * (0 + 1); omega)
  · rw [dif_neg h]
    exact pad_apply_of_not_inside _ _ _ x v hp hu _ (0 : Fin 2) (by
      intro hin
      have e3 : (n.val - 0) / (0 + 1) < 50000 := hin.2.2
      omega)

end AtIndex

variable (m : (ℓ : Loc nD τ sig) → Buf (Elt Ideal) ℓ) (c : Dev nD)

theorem V7_v3_eq : (Gen.V7 m c main_v3 : S800768x1.Idx → BitVec 32)
    = shapeCast S800768x1 (pad S800768 ![0] ![768] ![0] (m ((c : Thread nD τ).loc main_arg2) : S800000.Idx → BitVec 32)
        (constantI S_ 32 4294967295#32) pads_S800000_S800768_07680 h_S_) shapeCasts_S800768_S800768x1 := by
  refine ((Gen.V7_of m c main_v3 (by decide)).trans (Gen.V6_of m c main_v3 (by decide))).trans ?_
  show StableHlo.after hostOps0_4 (Gen.V4 m c) (Proc.devRef .tc main_v3) = _
  after_results
  simp only [StableHlo.TRef.ofBuf, StableHlo.TRef.toBuf, cast_eq, id]
  rfl

theorem V7_v5_eq : (Gen.V7 m c main_v5 : S1x800768.Idx → BitVec 32)
    = shapeCast S1x800768 (pad S800768 ![0] ![768] ![0] (m ((c : Thread nD τ).loc main_arg3) : S800000.Idx → BitVec 32)
        (constantI S_ 32 4294967295#32) pads_S800000_S800768_07680 h_S_) shapeCasts_S800768_S1x800768 := by
  show StableHlo.after hostOps0_6 (Gen.V6 m c) (Proc.devRef .tc main_v5) = _
  after_results
  simp only [StableHlo.TRef.ofBuf, StableHlo.TRef.toBuf, cast_eq, id]
  rfl

theorem V7_v1_eq : (Gen.V7 m c main_v1 : FVec Ideal S51200x128 .bf16)
    = truncf .bf16 (pad S51200x128 ![0, 0] ![1200, 0] ![0, 0] (m ((c : Thread nD τ).loc main_arg0) : FVec Ideal S50000x128 .f32)
        (sitofp (F := Ideal) .f32 (constantI S_ 32 0#32)) pads_S50000x128_S51200x128_012000_000 h_S_) bitsLt_bf16_f32 := by
  refine ((Gen.V7_of m c main_v1 (by decide)).trans <| (Gen.V6_of m c main_v1 (by decide)).trans <|
    (Gen.V5_of m c main_v1 (by decide)).trans (Gen.V4_of m c main_v1 (by decide))).trans ?_
  show StableHlo.after hostOps0_2 (Gen.V2 m c) (Proc.devRef .tc main_v1) = _
  after_results
  simp only [StableHlo.TRef.ofBuf, StableHlo.TRef.toBuf, cast_eq, id]

theorem V7_v7_eq : (Gen.V7 m c main_v7 : S1x2048.Idx → BitVec 32) = shapeCast S1x2048 (iotaInDim S2048 32 0) shapeCasts_S2048_S1x2048 := by
  show StableHlo.after hostOps0_6 (Gen.V6 m c) (Proc.devRef .tc main_v7) = _
  after_results
  simp only [StableHlo.TRef.ofBuf, StableHlo.TRef.toBuf, cast_eq, id]
  rfl
theorem V7_v9_eq : (Gen.V7 m c main_v9 : S2048x1.Idx → BitVec 32) = shapeCast S2048x1 (iotaInDim S2048 32 0) shapeCasts_S2048_S2048x1 := by
  show StableHlo.after hostOps0_6 (Gen.V6 m c) (Proc.devRef .tc main_v9) = _
  after_results
  simp only [StableHlo.TRef.ofBuf, StableHlo.TRef.toBuf, cast_eq, id]
  rfl

end HostAux

open HostAux

/-- The precondition's last conjunct: every source word is a node number. -/
theorem src_range (x0 : FVec Ideal S50000x128 .f32) (x1 : FVec Ideal S800000x8 .f32) (x2 x3 : IVec S800000 32) (x4 : FVec Ideal S128x128 .f32) (x5 : FVec Ideal S128 .f32)
    [Cert.Pre_finite_inputs.Facts] (h : Cert.Pre_finite_inputs.fn (F := Ideal) x0 x1 x2 x3 x4 x5 = fun _ => 1#1) (e : Fin 800000) : (x2 (ix1 e)).toNat < 50000 := by

  haveI : Subsingleton Cert.Pre_finite_inputs.S_.Idx := ⟨fun a b => funext fun d => d.elim0⟩

  have e0 := congrFun h ix0
  unfold Cert.Pre_finite_inputs.fn Cert.Pre_finite_inputs.fn_part1 at e0
  dsimp only at e0
  have h24 := (IntOp.andi_eq_one.1 e0).2
  have hall := Host.reduce_andi_all _ _ _ _ _ h24 (ix1 e)
  obtain ⟨hge, hlt⟩ := IntOp.andi_eq_one.1 hall
  exact toNat_lt_of_signed _ hge hlt

variable (m : (ℓ : Loc nD τ sig) → Buf (Elt Ideal) ℓ) (c : Dev nD)

/-- The padded source words: the true ones, then -1. -/
theorem srcp_apply (e : Fin 800768) : (Gen.V7 m c main_v3 : S800768x1.Idx → BitVec 32) (ix2 e (0 : Fin 1))
    = if h : e.val < 800000 then (m ((c : Thread nD τ).loc main_arg2) : S800000.Idx → BitVec 32) (ix1 ⟨e.val, h⟩) else 4294967295#32 :=
  (congrFun (V7_v3_eq m c) _).trans <| (shapeCast_a_a1_apply _ _ e 0).trans <| (pad_edges_apply _ _ _ _ e).trans rfl

/-- The padded destination words likewise. -/
theorem dstp_apply (e : Fin 800768) : (Gen.V7 m c main_v5 : S1x800768.Idx → BitVec 32) (ix2 (0 : Fin 1) e)
    = if h : e.val < 800000 then (m ((c : Thread nD τ).loc main_arg3) : S800000.Idx → BitVec 32) (ix1 ⟨e.val, h⟩) else 4294967295#32 :=
  (congrFun (V7_v5_eq m c) _).trans <| (shapeCast_a_1a_apply _ _ 0 e).trans <| (pad_edges_apply _ _ _ _ e).trans rfl

/-- The padded feature table: the true rows, then zeros. -/
theorem nfp_apply (n : Fin 51200) (f : Fin 128) : (Gen.V7 m c main_v1 : S51200x128.Idx → EReal) (ix2 n f)
    = (if h : n.val < 50000 then (m ((c : Thread nD τ).loc main_arg0) : S50000x128.Idx → EReal) (ix2 ⟨n.val, h⟩ f) else 0 : EReal) := by
  refine (congrFun (V7_v1_eq m c) _).trans ?_
  refine (truncf_apply (φ := .f32) (ψ := .bf16) _ bitsLt_bf16_f32 _).trans ?_
  refine (pad_nodes_apply _ _ _ _ n f).trans ?_
  by_cases h : n.val < 50000
  · rw [dif_pos h, dif_pos h]
  · rw [dif_neg h, dif_neg h]; exact sitofp_zero_word

/-- The lane-number row holds the lane numbers, -/
theorem iota_row (k : Fin 2048) : (Gen.V7 m c main_v7 : S1x2048.Idx → BitVec 32) (ix2 (0 : Fin 1) k) = BitVec.ofNat 32 k.val :=
  (congrFun (V7_v7_eq m c) _).trans <| (shapeCast_a_1a_apply _ _ 0 k).trans rfl

/-- and so does the column. -/
theorem iota_col (k : Fin 2048) : (Gen.V7 m c main_v9 : S2048x1.Idx → BitVec 32) (ix2 k (0 : Fin 1)) = BitVec.ofNat 32 k.val :=
  (congrFun (V7_v9_eq m c) _).trans <| (shapeCast_a_a1_apply _ _ k 0).trans rfl

theorem V7_arg4 : Gen.V7 m c main_arg4 = m ((c : Thread nD τ).loc main_arg4) :=
  (Gen.V7_of m c main_arg4 (by decide)).trans <| (Gen.V6_of m c main_arg4 (by decide)).trans <| (Gen.V5_of m c main_arg4 (by decide)).trans <|
    (Gen.V4_of m c main_arg4 (by decide)).trans <| (Gen.V3_of m c main_arg4 (by decide)).trans <| (Gen.V2_of m c main_arg4 (by decide)).trans <|
    (Gen.V1_of m c main_arg4 (by decide)).trans rfl
theorem V7_arg5 : Gen.V7 m c main_arg5 = m ((c : Thread nD τ).loc main_arg5) :=
  (Gen.V7_of m c main_arg5 (by decide)).trans <| (Gen.V6_of m c main_arg5 (by decide)).trans <| (Gen.V5_of m c main_arg5 (by decide)).trans <|
    (Gen.V4_of m c main_arg5 (by decide)).trans <| (Gen.V3_of m c main_arg5 (by decide)).trans <| (Gen.V2_of m c main_arg5 (by decide)).trans <|
    (Gen.V1_of m c main_arg5 (by decide)).trans rfl

end Cert.KernelIdeal.Val

end
-- ==== Proof.Val.Pay.lean ====
/- The kernels' payloads read at an index: each accumulation step adds a one-hot product, that is, a sum in which a word comparison selects the terms. -/
import proofs.«407643_j28157805593244_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx
open scoped BigOperators

theorem word_eq_iff (s : BitVec 32) (n : Nat) (hn : n < 2 ^ 32) : s = BitVec.ofNat 32 n ↔ s.toNat = n := by
  constructor
  · intro h; rw [h, BitVec.toNat_ofNat]; exact Nat.mod_eq_of_lt hn
  · intro h; apply BitVec.eq_of_toNat_eq; rw [BitVec.toNat_ofNat, Nat.mod_eq_of_lt hn]; exact h

/-- A sum against the indicator of "the word is base + k" has at most one term that is not zero. -/
theorem onehot_sum (s : BitVec 32) (base : Nat) (hb : base + 2048 ≤ 2 ^ 31) (g : Fin 2048 → EReal) :
    (∑ k : Fin 2048, (if s = BitVec.ofNat 32 (base + k.val) then (1 : EReal) else 0) * g k)
      = if h : base ≤ s.toNat ∧ s.toNat < base + 2048 then g ⟨s.toNat - base, by omega⟩ else 0 := by
  have key : ∀ k : Fin 2048, s = BitVec.ofNat 32 (base + k.val) ↔ s.toNat = base + k.val := fun k =>
    word_eq_iff s _ (by have := k.isLt; omega)
  by_cases h : base ≤ s.toNat ∧ s.toNat < base + 2048
  · rw [dif_pos h, Finset.sum_eq_single (⟨s.toNat - base, by omega⟩ : Fin 2048)]
    · rw [if_pos ((key _).mpr (by show s.toNat = base + (s.toNat - base); omega)), one_mul]
    · intro k _ hk
      rw [if_neg (fun e => hk (Fin.ext (by have := (key k).mp e; show k.val = s.toNat - base; omega))), zero_mul]
    · intro hn; exact absurd (Finset.mem_univ _) hn
  · rw [dif_neg h]
    refine Finset.sum_eq_zero fun k _ => ?_
    rw [if_neg (fun e => h (by have := (key k).mp e; have := k.isLt; omega)), zero_mul]

/-- Subtracting a block's base from a word leaves `k` exactly when the word is base + k: addition of words cancels. -/
theorem sub_eq_word (x : BitVec 32) (a k : Nat) :
    x - BitVec.ofNat 32 a * 2048#32 = BitVec.ofNat 32 k ↔ x = BitVec.ofNat 32 (a * 2048 + k) := by
  have e : BitVec.ofNat 32 (a * 2048 + k) = BitVec.ofNat 32 k + BitVec.ofNat 32 a * 2048#32 := by
    rw [Nat.add_comm, BitVec.ofNat_add, BitVec.ofNat_mul]
  rw [e]
  constructor
  · intro h; rw [← h, BitVec.sub_add_cancel]
  · intro h; rw [h, BitVec.add_sub_cancel]

/-- The converted bit of a word comparison is the indicator of the equation. -/
theorem sitofp_cmp_eq (a b : BitVec 32) :
    (FloatOps.sitofp (F := Ideal) .f32 ((IntOp.cmpi .eq a b).setWidth 32) : EReal) = if a = b then (1 : EReal) else 0 := by
  by_cases h : a = b
  · rw [if_pos h]
    have h1 : (IntOp.cmpi .eq a b).setWidth 32 = 1#32 := by subst h; simp [IntOp.cmpi]
    rw [h1]
    show (((1#32 : BitVec 32).toInt : ℝ) : EReal) = 1
    have h2 : (1#32 : BitVec 32).toInt = 1 := by decide
    rw [h2]; simp
  · rw [if_neg h]
    have hb : (a == b) = false := beq_eq_false_iff_ne.mpr h
    have h1 : (IntOp.cmpi .eq a b).setWidth 32 = 0#32 := by simp [IntOp.cmpi, hb]
    rw [h1]
    show (((0#32 : BitVec 32).toInt : ℝ) : EReal) = 0
    have h2 : (0#32 : BitVec 32).toInt = 0 := by decide
    rw [h2]; simp

/-- A column broadcast along the lanes reads the column's entry of that row. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_mm_0 (i : S2048x128.Idx) (q : dot_S2048x2048_S2048x128_S2048x128_1_0_0_1_n_n.contr.Idx) :
    (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
theorem lhs_mm_1 (i : S2048x128.Idx) (q : dot_S2048x2048_S2048x128_S2048x128_1_0_0_1_n_n.contr.Idx) :
    (dot_S2048x2048_S2048x128_S2048x128_1_0_0_1_n_n.lhsIdx i q 1).val = (q ⟨0, by decide⟩).val :=
  dot_S2048x2048_S2048x128_S2048x128_1_0_0_1_n_n.lhsIdx_val_of_single rfl i q
theorem rhs_mm_0 (i : S2048x128.Idx) (q : dot_S2048x2048_S2048x128_S2048x128_1_0_0_1_n_n.contr.Idx) :
    (dot_S2048x2048_S2048x128_S2048x128_1_0_0_1_n_n.rhsIdx i q 0).val = (q ⟨0, by decide⟩).val :=
  dot_S2048x2048_S2048x128_S2048x128_1_0_0_1_n_n.rhsIdx_val_of_single rfl i q
theorem rhs_mm_1 (i : S2048x128.Idx) (q : dot_S2048x2048_S2048x128_S2048x128_1_0_0_1_n_n.contr.Idx) :
    (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- A product into the zero accumulator read at (p, c): the sum over the one contracted coordinate. -/
theorem matmul_mm_apply {φ₁ φ₂ : FTy} (A : FVec Ideal S2048x2048 φ₁) (B : FVec Ideal S2048x128 φ₂) (p : Fin 2048) (c : Fin 128) :
    matmul dot_S2048x2048_S2048x128_S2048x128_1_0_0_1_n_n none A B (constant (F := Ideal) S2048x128 .f32 0x00000000#32) (ix2 p c)
      = ∑ k : Fin 2048, A (ix2 p k) * B (ix2 k c) := by
  simp only [matmul]
  rw [Ideal.matmul_constant_zero_apply, ← Equiv.sum_comp (ValueIdx.contrEquiv1 dot_S2048x2048_S2048x128_S2048x128_1_0_0_1_n_n 2048 rfl rfl).symm]
  refine Finset.sum_congr rfl fun k _ => ?_
  have hk := ValueIdx.contrEquiv1_symm_val dot_S2048x2048_S2048x128_S2048x128_1_0_0_1_n_n 2048 rfl rfl k
  have el : dot_S2048x2048_S2048x128_S2048x128_1_0_0_1_n_n.lhsIdx (ix2 p c) ((ValueIdx.contrEquiv1 dot_S2048x2048_S2048x128_S2048x128_1_0_0_1_n_n 2048 rfl rfl).symm k) = ix2 p k := funext fun a => Fin.ext (by
    match a with
    | ⟨0, _⟩ => exact lhs_mm_0 _ _
    | ⟨1, _⟩ => exact (lhs_mm_1 _ _).trans hk)
  have er : dot_S2048x2048_S2048x128_S2048x128_1_0_0_1_n_n.rhsIdx (ix2 p c) ((ValueIdx.contrEquiv1 dot_S2048x2048_S2048x128_S2048x128_1_0_0_1_n_n 2048 rfl rfl).symm k) = ix2 k c := funext fun a => Fin.ext (by
    match a with
    | ⟨0, _⟩ => exact (rhs_mm_0 _ _).trans hk
    | ⟨1, _⟩ => exact rhs_mm_1 _ _)
  rw [el, er]

theorem lhs_mw_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_mw_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_mw_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_mw_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The same for the weights' product. -/
theorem matmul_mw_apply {φ₁ φ₂ : FTy} (A : FVec Ideal S2048x128 φ₁) (B : FVec Ideal S128x128 φ₂) (p : Fin 2048) (c : Fin 128) :
    matmul dot_S2048x128_S128x128_S2048x128_1_0_0_1_n_n none A B (constant (F := Ideal) S2048x128 .f32 0x00000000#32) (ix2 p c)
      = ∑ k : Fin 128, A (ix2 p k) * B (ix2 k c) := by
  simp only [matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 p c) ((ValueIdx.contrEquiv1 dot_S2048x128_S128x128_S2048x128_1_0_0_1_n_n 128 rfl rfl).symm k) = ix2 p k := funext fun a => Fin.ext (by
    match a with
    | ⟨0, _⟩ => exact lhs_mw_0 _ _
    | ⟨1, _⟩ => exact (lhs_mw_1 _ _).trans hk)
  have er : dot_S2048x128_S128x128_S2048x128_1_0_0_1_n_n.rhsIdx (ix2 p c) ((ValueIdx.contrEquiv1 dot_S2048x128_S128x128_S2048x128_1_0_0_1_n_n 128 rfl rfl).symm k) = ix2 k c := funext fun a => Fin.ext (by
    match a with
    | ⟨0, _⟩ => exact (rhs_mw_0 _ _).trans hk
    | ⟨1, _⟩ => exact rhs_mw_1 _ _)
  rw [el, er]

theorem pay0_1_apply (j : S2048x128.Idx) : (k0_pay1 (F := Ideal)) j = 0 := by
  unfold k0_pay1
  simp only [shapeCast_self]
  exact Ideal.ofBits_zero_f32

/-- The gather step: row `e` gains the rows of the feature block whose number, from the block's base, is edge `e`'s source word. -/
theorem pay0_2_apply (i : grid0.Coords) (x0 : Vec Ideal S2048x1 .i32) (x2 : Vec Ideal S1x2048 .i32) (x1 : Vec Ideal S2048x128 .bf16)
    (acc : Vec Ideal S2048x128 .f32) (hiota : ∀ k : Fin 2048, x2 (ix2 (0 : Fin 1) k) = BitVec.ofNat 32 k.val) (e : Fin 2048) (f : Fin 128) :
    k0_pay2 (F := Ideal) i x0 x2 x1 acc (ix2 e f)
      = acc (ix2 e f) + ∑ k : Fin 2048, (if x0 (ix2 e (0 : Fin 1)) = BitVec.ofNat 32 ((i 1).val * 2048 + k.val) then (1 : EReal) else 0) * x1 (ix2 k f) := by
  unfold k0_pay2
  simp only [shapeCast_self]
  rw [addf_apply, matmul_mm_apply]
  refine congrArg (acc (ix2 e f) + ·) (Finset.sum_congr rfl fun k _ => ?_)
  refine congrArg (· * x1 (ix2 k f)) ?_
  rw [truncf_apply, sitofp_apply, extui_apply]
  show FloatOps.sitofp (F := Ideal) .f32 ((IntOp.cmpi .eq (broadcastTo S2048x2048 _ _ (ix2 e k)) (broadcastTo S2048x2048 _ _ (ix2 e k))).setWidth 32) = _
  rw [broadcastTo_a1_ab_apply, broadcastTo_1b_ab_apply, sitofp_cmp_eq, hiota k]
  exact if_congr (sub_eq_word _ _ _) rfl rfl

theorem pay1_1_apply (j : S2048x128.Idx) : (k1_pay1 (F := Ideal)) j = 0 := by
  unfold k1_pay1
  simp only [shapeCast_self]
  exact Ideal.ofBits_zero_f32

/-- The scatter step: row `v` gains the rows of the edges whose destination word is the block's base plus `v`. -/
theorem pay1_2_apply (i : grid1.Coords) (x0 : Vec Ideal S1x2048 .i32) (x4 : Vec Ideal S2048x1 .i32) (x1 : Vec Ideal S2048x128 .f32)
    (acc : Vec Ideal S2048x128 .f32) (hiota : ∀ k : Fin 2048, x4 (ix2 k (0 : Fin 1)) = BitVec.ofNat 32 k.val) (v : Fin 2048) (f : Fin 128) :
    k1_pay2 (F := Ideal) i x0 x4 x1 acc (ix2 v f)
      = acc (ix2 v f) + ∑ k : Fin 2048, (if x0 (ix2 (0 : Fin 1) k) = BitVec.ofNat 32 ((i 0).val * 2048 + v.val) then (1 : EReal) else 0) * x1 (ix2 k f) := by
  unfold k1_pay2
  simp only [shapeCast_self]
  rw [addf_apply, matmul_mm_apply]
  refine congrArg (acc (ix2 v f) + ·) (Finset.sum_congr rfl fun k _ => ?_)
  rw [truncf_apply, truncf_apply, sitofp_apply, extui_apply]
  refine congrArg (· * x1 (ix2 k f)) ?_
  show FloatOps.sitofp (F := Ideal) .f32 ((IntOp.cmpi .eq (broadcastTo S2048x2048 _ _ (ix2 v k)) (broadcastTo S2048x2048 _ _ (ix2 v k))).setWidth 32) = _
  rw [broadcastTo_a1_ab_apply, broadcastTo_1b_ab_apply, sitofp_cmp_eq, hiota v]
  exact if_congr ((eq_comm).trans (sub_eq_word _ _ _)) rfl rfl

/-- The last store: the accumulated rows against the weights, plus the bias. -/
theorem pay1_3_apply (acc : Vec Ideal S2048x128 .f32) (W : Vec Ideal S128x128 .f32) (b : Vec Ideal S128 .f32) (v : Fin 2048) (o : Fin 128) :
    k1_pay3 (F := Ideal) acc W b (ix2 v o) = (∑ f : Fin 128, acc (ix2 v f) * W (ix2 o f)) + b (ix1 o) := by
  unfold k1_pay3
  rw [addf_apply, matmul_mw_apply, broadcastTo_1b_ab_apply, shapeCast_a_1a_apply]
  refine congrArg (· + b (ix1 o)) (Finset.sum_congr rfl fun f _ => ?_)
  rw [truncf_apply, transpose_ix2_apply, truncf_apply]

end Cert.KernelIdeal.Val

end
-- ==== Proof.Val.R0.lean ====
/- Region 0's array. Point `t` is edge block `t / 25` against node block `t % 25`; within an edge block the accumulator row of an edge collects, node block by node block, the row its source word names, using only `0 + x = x` and `x + 0 = x`; the last point of the edge block leaves those rows in the array, and those blocks tile it. -/
import proofs.«407643_j28157805593244_2_alg».proof.Proof.Fr.R0
import proofs.«407643_j28157805593244_2_alg».proof.Proof.Val.Pay
import proofs.«407643_j28157805593244_2_alg».proof.Proof.Val.Spec
import Idealize.ShloMosaic.Lib.Pipeline.Value
import Idealize.ShloMosaic.Lib.ValueIdx

set_option maxRecDepth 16384
set_option Elab.async false

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem lt_N (t : Fin cfg0.N) : t.val < 9775 := Nat.lt_of_lt_of_eq t.isLt N_0

/-- The grid and the windows' index maps in closed form, decided over all points. -/
theorem coord1 : ∀ t : Fin cfg0.N, (grid0.coords t 1).val = t.val % 25 :=
  (by decide +kernel : ∀ t : Fin grid0.N, (grid0.coords t 1).val = t.val % 25)

theorem idx_src : ∀ t : Fin cfg0.N, win0_0.index t (0 : Fin 2) = t.val / 25 ∧ win0_0.index t (1 : Fin 2) = 0 :=
  (by decide +kernel : ∀ t : Fin grid0.N, win0_0.index t (0 : Fin 2) = t.val / 25 ∧ win0_0.index t (1 : Fin 2) = 0)

theorem idx_nf : ∀ t : Fin cfg0.N, win0_1.index t (0 : Fin 2) = t.val % 25 ∧ win0_1.index t (1 : Fin 2) = 0 :=
  (by decide +kernel : ∀ t : Fin grid0.N, win0_1.index t (0 : Fin 2) = t.val % 25 ∧ win0_1.index t (1 : Fin 2) = 0)

theorem idx_iota : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem idx_out : ∀ t : Fin cfg0.N, win0_3.index t (0 : Fin 2) = t.val / 25 ∧ win0_3.index t (1 : Fin 2) = 0 :=
  (by decide +kernel : ∀ t : Fin grid0.N, win0_3.index t (0 : Fin 2) = t.val / 25 ∧ win0_3.index t (1 : Fin 2) = 0)

/-- The input blocks at a point as entries of their arrays. -/
theorem srcBlk_apply (c : Dev nD) (t : Fin cfg0.N) (e : Fin 2048) (r : Fin 800768) (hr : r.val = t.val / 25 * 2048 + e.val) :
    (Fr.iblk0 V c 0 t : Vec Ideal S2048x1 .i32) (ix2 e (0 : Fin 1)) = (V c main_v3 : S800768x1.Idx → BitVec 32) (ix2 r (0 : Fin 1)) := by
  obtain ⟨h0, h1⟩ := idx_src t
  unfold Fr.iblk0
  rw [View.read_apply]
  show (V c main_v3 : S800768x1.Idx → BitVec 32) _ = (V c main_v3 : S800768x1.Idx → BitVec 32) _
  congr 1
  funext a
  apply Fin.ext
  match a with
  | ⟨0, _⟩ => show win0_0.index t 0 * 2048 + 1 * e.val = r.val; rw [h0, hr]; omega
  | ⟨1, _⟩ => show win0_0.index t 1 * 1 + 1 * 0 = 0; rw [h1]

theorem nfBlk_apply (c : Dev nD) (t : Fin cfg0.N) (k : Fin 2048) (f : Fin 128) (r : Fin 51200) (hr : r.val = t.val % 25 * 2048 + k.val) :
    (Fr.iblk0 V c 1 t : Vec Ideal S2048x128 .bf16) (ix2 k f) = (V c main_v1 : S51200x128.Idx → EReal) (ix2 r f) := by
  obtain ⟨h0, h1⟩ := idx_nf t
  unfold Fr.iblk0
  rw [View.read_apply]
  show (V c main_v1 : S51200x128.Idx → EReal) _ = (V c main_v1 : S51200x128.Idx → EReal) _
  congr 1
  funext a
  apply Fin.ext
  match a with
  | ⟨0, _⟩ => show win0_1.index t 0 * 2048 + 1 * k.val = r.val; rw [h0, hr]; omega
  | ⟨1, _⟩ => show win0_1.index t 1 * 128 + 1 * f.val = f.val; rw [h1]; omega

theorem iotaBlk_apply (c : Dev nD) (t : Fin cfg0.N) (k : Fin 2048) :
    (Fr.iblk0 V c 2 t : Vec Ideal S1x2048 .i32) (ix2 (0 : Fin 1) k) = (V c main_v7 : S1x2048.Idx → BitVec 32) (ix2 (0 : Fin 1) k) := by
  obtain ⟨h0, h1⟩ := idx_iota t
  unfold Fr.iblk0
  rw [View.read_apply]
  show (V c main_v7 : S1x2048.Idx → BitVec 32) _ = (V c main_v7 : S1x2048.Idx → BitVec 32) _
  congr 1
  funext a
  apply Fin.ext
  match a with
  | ⟨0, _⟩ => show win0_2.index t 0 * 1 + 1 * 0 = 0; rw [h0]
  | ⟨1, _⟩ => show win0_2.index t 1 * 2048 + 1 * k.val = k.val; rw [h1]; omega

/-- The source word of edge `e` of point `n`'s edge block. -/
def srcWord (c : Dev nD) (n : Nat) (hn : n < 9775) (e : Fin 2048) : BitVec 32 :=
  (V c main_v3 : S800768x1.Idx → BitVec 32) (ix2 (⟨n / 25 * 2048 + e.val, by omega⟩ : Fin 800768) (0 : Fin 1))

theorem srcWord_congr (c : Dev nD) (n n' : Nat) (hn : n < 9775) (hn' : n' < 9775) (h : n / 25 = n' / 25) (e : Fin 2048) :
    srcWord V c n hn e = srcWord V c n' hn' e := by
  unfold srcWord
  congr 2
  apply Fin.ext
  show n / 25 * 2048 + e.val = n' / 25 * 2048 + e.val
  rw [h]

/-- The row a word names inside node block `nb`, zero if none there; -/
def blockRow (c : Dev nD) (s : BitVec 32) (nb : Nat) (hnb : nb < 25) (f : Fin 128) : EReal :=
  if h : nb * 2048 ≤ s.toNat ∧ s.toNat < nb * 2048 + 2048
    then (V c main_v1 : S51200x128.Idx → EReal) (ix2 (⟨s.toNat, by omega⟩ : Fin 51200) f) else 0

/-- and among node blocks `0 … nb`. -/
def partialRow (c : Dev nD) (s : BitVec 32) (nb : Nat) (hnb : nb < 25) (f : Fin 128) : EReal :=
  if h : s.toNat < nb * 2048 + 2048
    then (V c main_v1 : S51200x128.Idx → EReal) (ix2 (⟨s.toNat, by omega⟩ : Fin 51200) f) else 0

theorem partialRow_congr (c : Dev nD) (s : BitVec 32) (nb nb' : Nat) (hnb : nb < 25) (hnb' : nb' < 25) (h : nb = nb') (f : Fin 128) :
    partialRow V c s nb hnb f = partialRow V c s nb' hnb' f := by
  subst h; rfl

theorem partialRow_first (c : Dev nD) (s : BitVec 32) (nb : Nat) (hnb : nb < 25) (h0 : nb = 0) (f : Fin 128) :
    0 + blockRow V c s nb hnb f = partialRow V c s nb hnb f := by
  subst h0
  rw [zero_add]
  unfold blockRow partialRow
  by_cases h : s.toNat < 0 * 2048 + 2048
  · rw [dif_pos h, dif_pos ⟨by omega, h⟩]
  · rw [dif_neg h, dif_neg (fun h' => h h'.2)]

/-- One more node block: the word names a row in the new block, before it, or after it. -/
theorem partialRow_step (c : Dev nD) (s : BitVec 32) (nb nb' : Nat) (hnb : nb < 25) (hnb' : nb' < 25) (hs : nb' = nb + 1) (f : Fin 128) :
    partialRow V c s nb hnb f + blockRow V c s nb' hnb' f = partialRow V c s nb' hnb' f := by
  subst hs
  unfold blockRow partialRow
  by_cases h1 : s.toNat < nb * 2048 + 2048
  · rw [dif_pos h1, dif_neg (fun h' => by omega), dif_pos (by omega), add_zero]
  · by_cases h2 : s.toNat < (nb + 1) * 2048 + 2048
    · rw [dif_neg h1, dif_pos ⟨by omega, h2⟩, dif_pos h2, zero_add]
    · rw [dif_neg h1, dif_neg (fun h' => h2 h'.2), dif_neg h2, add_zero]

theorem partialRow_last (c : Dev nD) (s : BitVec 32) (hnb : 24 < 25) (f : Fin 128) :
    partialRow V c s 24 hnb f
      = (if h : s.toNat < 51200 then (V c main_v1 : S51200x128.Idx → EReal) (ix2 (⟨s.toNat, h⟩ : Fin 51200) f) else (0 : EReal) : EReal) := rfl

/-- One point's update adds the row the edge's source word names inside the point's node block. -/
theorem pay_point (c : Dev nD) (hiota : ∀ k : Fin 2048, (V c main_v7 : S1x2048.Idx → BitVec 32) (ix2 (0 : Fin 1) k) = BitVec.ofNat 32 k.val)
    (t : Fin cfg0.N) (acc : Vec Ideal S2048x128 .f32) (e : Fin 2048) (f : Fin 128) :
    k0_pay2 (F := Ideal) (grid0.coords t) (Fr.iblk0 V c 0 t) (Fr.iblk0 V c 2 t) (Fr.iblk0 V c 1 t) acc (ix2 e f)
      = acc (ix2 e f) + blockRow V c (srcWord V c t.val (lt_N t) e) (t.val % 25) (Nat.mod_lt _ (by decide)) f := by
  refine (pay0_2_apply (grid0.coords t) (Fr.iblk0 V c 0 t) (Fr.iblk0 V c 2 t) (Fr.iblk0 V c 1 t) acc
    (fun k => (iotaBlk_apply V c t k).trans (hiota k)) e f).trans ?_
  congr 1
  have hs : (Fr.iblk0 V c 0 t : Vec Ideal S2048x1 .i32) (ix2 e (0 : Fin 1)) = srcWord V c t.val (lt_N t) e :=
    srcBlk_apply V c t e _ rfl
  rw [hs, coord1 t]
  refine (onehot_sum (srcWord V c t.val (lt_N t) e) (t.val % 25 * 2048) (by omega)
    (fun k => (Fr.iblk0 V c 1 t : Vec Ideal S2048x128 .bf16) (ix2 k f))).trans ?_
  unfold blockRow
  by_cases h : t.val % 25 * 2048 ≤ (srcWord V c t.val (lt_N t) e).toNat ∧ (srcWord V c t.val (lt_N t) e).toNat < t.val % 25 * 2048 + 2048
  · rw [dif_pos h, dif_pos h]
    exact nfBlk_apply V c t _ f _ (by show (srcWord V c t.val (lt_N t) e).toNat = t.val % 25 * 2048 + ((srcWord V c t.val (lt_N t) e).toNat - t.val % 25 * 2048); omega)
  · rw [dif_neg h, dif_neg h]

theorem scratch_first (c : Dev nD) (hiota : ∀ k : Fin 2048, (V c main_v7 : S1x2048.Idx → BitVec 32) (ix2 (0 : Fin 1) k) = BitVec.ofNat 32 k.val)
    (t : Fin cfg0.N) (h : t.val % 25 = 0) (e : Fin 2048) (f : Fin 128) :
    (Fr.outsAt0 V c t.val t.isLt).2 (ix2 e f)
      = partialRow V c (srcWord V c t.val (lt_N t) e) (t.val % 25) (Nat.mod_lt _ (by decide)) f := by
  refine (congrFun (Fr.sc0_first V c t h) (ix2 e f)).trans ?_
  refine (pay_point V c hiota t (k0_pay1 (F := Ideal)) e f).trans ?_
  rw [pay0_1_apply]
  exact partialRow_first V c _ _ _ h f

/-- After point `n` the accumulator row of an edge is the row its source word names among the node blocks seen so far: induction along the edge block. -/
theorem scratch_inv (c : Dev nD) (hiota : ∀ k : Fin 2048, (V c main_v7 : S1x2048.Idx → BitVec 32) (ix2 (0 : Fin 1) k) = BitVec.ofNat 32 k.val) :
    ∀ (n : Nat) (hn : n < cfg0.N) (e : Fin 2048) (f : Fin 128),
      (Fr.outsAt0 V c n hn).2 (ix2 e f)
        = partialRow V c (srcWord V c n (lt_N ⟨n, hn⟩) e) (n % 25) (Nat.mod_lt _ (by decide)) f := by
  intro n
  induction n with
  | zero => intro hn e f; exact scratch_first V c hiota ⟨0, hn⟩ rfl e f
  | succ m ih =>
    intro hn e f
    by_cases h : (m + 1) % 25 = 0
    · exact scratch_first V c hiota ⟨m + 1, hn⟩ h e f
    · have hm : m < cfg0.N := Nat.lt_of_succ_lt hn
      refine (congrFun (Fr.sc0_next V c ⟨m + 1, hn⟩ h) (ix2 e f)).trans ?_
      refine (pay_point V c hiota ⟨m + 1, hn⟩ _ e f).trans ?_
      have ih' : (Fr.outsAt0 V c m hm).2 (ix2 e f)
          = partialRow V c (srcWord V c (m + 1) (lt_N ⟨m + 1, hn⟩) e) (m % 25) (Nat.mod_lt _ (by decide)) f := by
        rw [ih hm e f, srcWord_congr V c m (m + 1) (lt_N ⟨m, hm⟩) (lt_N ⟨m + 1, hn⟩) (by omega) e]
      refine (congrArg (· + blockRow V c (srcWord V c (m + 1) (lt_N ⟨m + 1, hn⟩) e) ((m + 1) % 25) (Nat.mod_lt _ (by decide)) f) ih').trans ?_
      exact partialRow_step V c _ (m % 25) ((m + 1) % 25) _ _ (by omega) f

theorem M0_apply (srcp : (⟨2, ![800768, 1]⟩ : Shape).Idx → BitVec 32) (nfp : (⟨2, ![51200, 128]⟩ : Shape).Idx → EReal) (r : Fin 800768) (f : Fin 128) :
    Cert.Spec.M0 srcp nfp (ix2 r f)
      = if h : (srcp (ix2 r (0 : Fin 1))).toNat < 51200 then nfp (ix2 (⟨_, h⟩ : Fin 51200) f) else 0 := rfl

/-- The last point of an edge block leaves that block of the padded edges' rows. -/
theorem flushed_eq (c : Dev nD) (hiota : ∀ k : Fin 2048, (V c main_v7 : S1x2048.Idx → BitVec 32) (ix2 (0 : Fin 1) k) = BitVec.ofNat 32 k.val)
    (t : Fin cfg0.N) (hf : (cfg0.win 3).flush t = true) :
    (Fr.dat0 V c).flushed 3 t = ((cfg0.win 3).blk t).view.read (Elt Ideal) (Cert.Spec.M0 (V c main_v3) (V c main_v1)) := by
  have h24 : t.val % 25 = 24 := (flush0_3 t).mp hf
  obtain ⟨h0, h1⟩ := idx_out t
  have hlt := lt_N t
  show (cfg0.win 3).cut (grid0.coords t) ((Fr.dat0 V c).after 3 t) = _
  rw [Fr.after0_3, Fr.out0_last V c t h24]
  refine funext fun (j : S2048x128.Idx) => ?_
  obtain ⟨e, f, rfl⟩ : ∃ (e : Fin 2048) (f : Fin 128), j = ix2 e f := ⟨j 0, j 1, eq_ix2 j⟩
  rw [View.read_apply]
  show (Fr.outsAt0 V c t.val t.isLt).2 (ix2 e f) = Cert.Spec.M0 (V c main_v3) (V c main_v1) (((cfg0.win 3).blk t).view.emb (ix2 e f))
  have hemb : (((cfg0.win 3).blk t).view.emb (ix2 e f) : S800768x128.Idx) = ix2 (⟨t.val / 25 * 2048 + e.val, by omega⟩ : Fin 800768) f := by
    funext a
    apply Fin.ext
    match a with
    | ⟨0, _⟩ => show win0_3.index t 0 * 2048 + 1 * e.val = t.val / 25 * 2048 + e.val; rw [h0]; omega
    | ⟨1, _⟩ => show win0_3.index t 1 * 128 + 1 * f.val = f.val; rw [h1]; omega
  rw [hemb, M0_apply, scratch_inv V c hiota t.val t.isLt e f,
    partialRow_congr V c _ (t.val % 25) 24 _ (by decide) h24 f, partialRow_last]
  rfl

/-- Every row lies in the block of some last point. -/
theorem cover (i : S800768x128.Idx) : ∃ t : Fin cfg0.N, (cfg0.win 3).flush t = true ∧ i ∈ ((cfg0.win 3).blk t).view.set := by
  have hi0 : (i 0).val < 800768 := idx2_lt0 i
  have hi1 : (i 1).val < 128 := idx2_lt1 i
  obtain ⟨t, ht⟩ : ∃ t : Fin cfg0.N, t.val = (i 0).val / 2048 * 25 + 24 :=
    ⟨⟨(i 0).val / 2048 * 25 + 24, by rw [show cfg0.N = 9775 from N_0]; omega⟩, rfl⟩
  obtain ⟨h0, h1⟩ := idx_out t
  refine ⟨t, (flush0_3 t).mpr (by omega), ?_⟩
  show i ∈ ((View.whole main_v10).slice (win0_3.rect t)).set
  rw [View.set_slice_whole, Rect.mem_set_unit]
  intro a
  match a with
  | ⟨0, _⟩ => show win0_3.index t 0 * 2048 ≤ (i 0).val ∧ (i 0).val < win0_3.index t 0 * 2048 + 2048; rw [h0]; omega
  | ⟨1, _⟩ => show win0_3.index t 1 * 128 ≤ (i 1).val ∧ (i 1).val < win0_3.index t 1 * 128 + 128; rw [h1]; omega

/-- So the array ends at the padded edges' rows. -/
theorem arr0_final (c : Dev nD) (hiota : ∀ k : Fin 2048, (V c main_v7 : S1x2048.Idx → BitVec 32) (ix2 (0 : Fin 1) k) = BitVec.ofNat 32 k.val) :
    (Fr.dat0 V c).arrAt 3 cfg0.N = Cert.Spec.M0 (V c main_v3) (V c main_v1) :=
  (Fr.dat0 V c).arrAt_eq_of_cover 3 (Cert.Spec.M0 (V c main_v3) (V c main_v1)) (fun t hf => flushed_eq V c hiota t hf) (fun i => cover i)

end Cert.KernelIdeal.Val

end
-- ==== Proof.Val.R1.lean ====
/- Region 1's array. Point `t` is node block `t / 391` against edge block `t % 391`; the accumulator row of a node sums, edge block by edge block, the rows of the edges whose destination word is that node; the last point of the node block stores the linear layer on it, and those blocks tile the array. -/
import proofs.«407643_j28157805593244_2_alg».proof.Proof.Fr.R1
import proofs.«407643_j28157805593244_2_alg».proof.Proof.Val.Pay
import proofs.«407643_j28157805593244_2_alg».proof.Proof.Val.Spec
import Idealize.ShloMosaic.Lib.Pipeline.Value
import Idealize.ShloMosaic.Lib.ValueIdx
import Idealize.ShloMosaic.Lib.Decide

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A sum over a block of a range, and a prefix sum extended by one block. -/
theorem sum_block {M : Type*} [AddCommMonoid M] {N : Nat} (b B : Nat) (hb : b + B ≤ N) (h : Fin N → M) :
    (∑ e : Fin N, if b ≤ e.val ∧ e.val < b + B then h e else 0)
      = ∑ k : Fin B, h (⟨b + k.val, by have := k.isLt; omega⟩ : Fin N) := by
  rw [← Finset.sum_filter]
  symm
  refine Finset.sum_bij (fun k _ => (⟨b + k.val, by have := k.isLt; omega⟩ : Fin N)) ?_ ?_ ?_ ?_
  · intro k _
    have := k.isLt
    simp only [Finset.mem_filter, Finset.mem_univ, true_and]
    constructor <;> omega
  · intro k₁ _ k₂ _ hk
    apply Fin.ext
    have := congrArg Fin.val hk
    simp only at this
    omega
  · intro e he
    simp only [Finset.mem_filter, Finset.mem_univ, true_and] at he
    exact ⟨⟨e.val - b, by omega⟩, Finset.mem_univ _, Fin.ext (by simp only; omega)⟩
  · intro k _
    rfl

theorem sum_prefix_step {M : Type*} [AddCommMonoid M] {N : Nat} (b B : Nat) (hb : b + B ≤ N) (h : Fin N → M) :
    (∑ e : Fin N, if e.val < b + B then h e else 0)
      = (∑ e : Fin N, if e.val < b then h e else 0) + ∑ k : Fin B, h (⟨b + k.val, by have := k.isLt; omega⟩ : Fin N) := by
  rw [← sum_block b B hb h, ← Finset.sum_add_distrib]
  refine Finset.sum_congr rfl fun e _ => ?_
  by_cases h1 : e.val < b
  · rw [if_pos (by omega), if_pos h1, if_neg (by omega), add_zero]
  · by_cases h2 : e.val < b + B
    · rw [if_pos h2, if_neg h1, if_pos (by omega), zero_add]
    · rw [if_neg h2, if_neg h1, if_neg (by omega), add_zero]

/-- The grid and the windows' index maps in closed form, decided over all points. -/
theorem grid1_facts : ∀ t : Fin cfg1.N,
    (grid1.coords t 0).val = t.val / 391 ∧ (grid1.coords t 1).val = t.val % 391
    ∧ win1_0.index t (0 : Fin 2) = 0 ∧ win1_0.index t (1 : Fin 2) = t.val % 391
    ∧ win1_1.index t (0 : Fin 2) = t.val % 391 ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val / 391 ∧ win1_5.index t (1 : Fin 2) = 0 :=
  (by decide +kernel : ∀ t : Fin grid1.N, _)

theorem nbo_lt (t : Fin cfg1.N) : t.val / 391 < 25 := by
  have := t.isLt
  have hN : cfg1.N = 9775 := N_1
  omega

/-- The input blocks at a point as entries of their arrays. -/
theorem blk_dst (c : Dev nD) (t : Fin cfg1.N) (k : Fin 2048) :
    (Fr.iblk1 V c 0 t : Vec Ideal S1x2048 .i32) (ix2 (0 : Fin 1) k)
      = (V c main_v5 : S1x800768.Idx → BitVec 32) (ix2 (0 : Fin 1) (⟨(t.val % 391) * 2048 + k.val, by omega⟩ : Fin 800768)) := by
  obtain ⟨-, -, h0, h1, -⟩ := grid1_facts t
  unfold Fr.iblk1
  rw [View.read_apply]
  show V c main_v5 _ = V c main_v5 _
  congr 1
  funext a
  apply Fin.ext
  match a with
  | ⟨0, _⟩ => show win1_0.index t 0 * 1 + 1 * 0 = 0; rw [h0]
  | ⟨1, _⟩ => show win1_0.index t 1 * 2048 + 1 * k.val = (t.val % 391) * 2048 + k.val; rw [h1]; omega

theorem blk_msg (c : Dev nD) (t : Fin cfg1.N) (k : Fin 2048) (f : Fin 128) :
    (Fr.iblk1 V c 1 t : Vec Ideal S2048x128 .f32) (ix2 k f)
      = (V c main_v10 : S800768x128.Idx → EReal) (ix2 (⟨(t.val % 391) * 2048 + k.val, by omega⟩ : Fin 800768) f) := by
  obtain ⟨-, -, -, -, h0, h1, -⟩ := grid1_facts t
  unfold Fr.iblk1
  rw [View.read_apply]
  show V c main_v10 _ = V c main_v10 _
  congr 1
  funext a
  apply Fin.ext
  match a with
  | ⟨0, _⟩ => show win1_1.index t 0 * 2048 + 1 * k.val = (t.val % 391) * 2048 + k.val; rw [h0]; omega
  | ⟨1, _⟩ => show win1_1.index t 1 * 128 + 1 * f.val = f.val; rw [h1]; omega

theorem blk_W (c : Dev nD) (t : Fin cfg1.N) (o f : Fin 128) :
    (Fr.iblk1 V c 2 t : Vec Ideal S128x128 .f32) (ix2 o f) = (V c main_arg4 : S128x128.Idx → EReal) (ix2 o f) := by
  obtain ⟨-, -, -, -, -, -, h0, h1, -⟩ := grid1_facts t
  unfold Fr.iblk1
  rw [View.read_apply]
  show V c main_arg4 _ = V c main_arg4 _
  congr 1
  funext a
  apply Fin.ext
  match a with
  | ⟨0, _⟩ => show win1_2.index t 0 * 128 + 1 * o.val = o.val; rw [h0]; omega
  | ⟨1, _⟩ => show win1_2.index t 1 * 128 + 1 * f.val = f.val; rw [h1]; omega

theorem blk_b (c : Dev nD) (t : Fin cfg1.N) (o : Fin 128) :
    (Fr.iblk1 V c 3 t : Vec Ideal S128 .f32) (ix1 o) = (V c main_arg5 : S128.Idx → EReal) (ix1 o) := by
  obtain ⟨-, -, -, -, -, -, -, -, h0, -⟩ := grid1_facts t
  unfold Fr.iblk1
  rw [View.read_apply]
  show V c main_arg5 _ = V c main_arg5 _
  congr 1
  funext a
  apply Fin.ext
  match a with
  | ⟨0, _⟩ => show win1_3.index t 0 * 128 + 1 * o.val = o.val; rw [h0]; omega

theorem blk_iota (c : Dev nD) (t : Fin cfg1.N) (k : Fin 2048) :
    (Fr.iblk1 V c 4 t : Vec Ideal S2048x1 .i32) (ix2 k (0 : Fin 1)) = (V c main_v9 : S2048x1.Idx → BitVec 32) (ix2 k (0 : Fin 1)) := by
  obtain ⟨-, -, -, -, -, -, -, -, -, h0, h1, -⟩ := grid1_facts t
  unfold Fr.iblk1
  rw [View.read_apply]
  show V c main_v9 _ = V c main_v9 _
  congr 1
  funext a
  apply Fin.ext
  match a with
  | ⟨0, _⟩ => show win1_4.index t 0 * 2048 + 1 * k.val = k.val; rw [h0]; omega
  | ⟨1, _⟩ => show win1_4.index t 1 * 1 + 1 * 0 = 0; rw [h1]

theorem out_emb (t : Fin cfg1.N) (v : Fin 2048) (o : Fin 128) :
    ((cfg1.win 5).blk t).view.emb (ix2 v o)
      = (ix2 (⟨(t.val / 391) * 2048 + v.val, by have := nbo_lt t; omega⟩ : Fin 51200) o : S51200x128.Idx) := by
  obtain ⟨-, -, -, -, -, -, -, -, -, -, -, h0, h1⟩ := grid1_facts t
  funext a
  apply Fin.ext
  match a with
  | ⟨0, _⟩ => show win1_5.index t 0 * 2048 + 1 * v.val = (t.val / 391) * 2048 + v.val; rw [h0]; omega
  | ⟨1, _⟩ => show win1_5.index t 1 * 128 + 1 * o.val = o.val; rw [h1]; omega

/-- What padded edge `e` gives node `v` of node block `nbo`: its row if its destination word is that node, else zero. -/
def give (c : Dev nD) (nbo : Nat) (v : Fin 2048) (f : Fin 128) (e : Fin 800768) : EReal :=
  if (V c main_v5 : S1x800768.Idx → BitVec 32) (ix2 (0 : Fin 1) e) = BitVec.ofNat 32 (nbo * 2048 + v.val)
    then (V c main_v10 : S800768x128.Idx → EReal) (ix2 e f) else 0

/-- One point's update adds what the point's edge block gives. -/
theorem pay2_at (c : Dev nD) (hiota : ∀ k : Fin 2048, (V c main_v9 : S2048x1.Idx → BitVec 32) (ix2 k (0 : Fin 1)) = BitVec.ofNat 32 k.val)
    (n : Nat) (hn : n < cfg1.N) (acc : Vec Ideal S2048x128 .f32) (v : Fin 2048) (f : Fin 128) :
    k1_pay2 (F := Ideal) (grid1.coords ⟨n, hn⟩) (Fr.iblk1 V c 0 ⟨n, hn⟩) (Fr.iblk1 V c 4 ⟨n, hn⟩) (Fr.iblk1 V c 1 ⟨n, hn⟩) acc (ix2 v f)
      = acc (ix2 v f) + ∑ k : Fin 2048, give V c (n / 391) v f (⟨n % 391 * 2048 + k.val, by have := k.isLt; omega⟩ : Fin 800768) := by
  obtain ⟨g0, -⟩ := grid1_facts ⟨n, hn⟩
  refine (pay1_2_apply (grid1.coords ⟨n, hn⟩) _ _ _ acc (fun k => (blk_iota V c ⟨n, hn⟩ k).trans (hiota k)) v f).trans ?_
  congr 1
  refine Finset.sum_congr rfl fun k _ => ?_
  rw [blk_dst, blk_msg, g0]
  unfold give
  split_ifs with h
  · exact one_mul _
  · exact zero_mul _

/-- After point `n` the accumulator row of a node holds what the edge blocks seen so far give it: induction along the node block. -/
theorem scratch1_at (c : Dev nD) (hiota : ∀ k : Fin 2048, (V c main_v9 : S2048x1.Idx → BitVec 32) (ix2 k (0 : Fin 1)) = BitVec.ofNat 32 k.val) :
    ∀ (n : Nat) (hn : n < cfg1.N) (v : Fin 2048) (f : Fin 128),
      (Fr.outsAt1 V c n hn).2 (ix2 v f)
        = ∑ e : Fin 800768, if e.val < (n % 391 + 1) * 2048 then give V c (n / 391) v f e else 0 := by
  intro n
  induction n using Nat.strong_induction_on with
  | _ n ih =>
    intro hn v f
    have e1 : (n % 391 + 1) * 2048 = n % 391 * 2048 + 2048 := by omega
    rw [e1, sum_prefix_step (n % 391 * 2048) 2048 (by omega) (give V c (n / 391) v f)]
    by_cases h0 : n % 391 = 0
    ·
      refine (congrFun (Fr.sc1_first V c ⟨n, hn⟩ h0) (ix2 v f)).trans ?_
      refine (pay2_at V c hiota n hn _ v f).trans ?_
      rw [pay1_1_apply, Finset.sum_eq_zero (fun e _ => if_neg (by omega))]
    ·
      refine (congrFun (Fr.sc1_next V c ⟨n, hn⟩ h0) (ix2 v f)).trans ?_
      refine (pay2_at V c hiota n hn _ v f).trans ?_
      have e2 : ((n - 1) % 391 + 1) * 2048 = n % 391 * 2048 := by omega
      have e3 : (n - 1) / 391 = n / 391 := by omega
      have := ih (n - 1) (by omega) (Nat.lt_of_le_of_lt (Nat.sub_le _ _) hn) v f
      rw [e2, e3] at this
      exact congrArg (· + _) this

theorem O1_apply (dstp : S1x800768.Idx → BitVec 32) (msgp : S800768x128.Idx → EReal) (W : S128x128.Idx → EReal) (b : S128.Idx → EReal)
    (r : Fin 51200) (o : Fin 128) :
    Cert.Spec.O1 dstp msgp W b (ix2 r o) = (∑ f : Fin 128, Cert.Spec.aggp dstp msgp r f * W (ix2 o f)) + b (ix1 o) := rfl

theorem scratch1_last (c : Dev nD) (hiota : ∀ k : Fin 2048, (V c main_v9 : S2048x1.Idx → BitVec 32) (ix2 k (0 : Fin 1)) = BitVec.ofNat 32 k.val)
    (t : Fin cfg1.N) (h : t.val % 391 = 390) (v : Fin 2048) (f : Fin 128) :
    (Fr.outsAt1 V c t.val t.isLt).2 (ix2 v f)
      = Cert.Spec.aggp (V c main_v5) (V c main_v10) (⟨(t.val / 391) * 2048 + v.val, by have := nbo_lt t; omega⟩ : Fin 51200) f := by
  rw [scratch1_at V c hiota t.val t.isLt v f]
  unfold Cert.Spec.aggp give
  refine Finset.sum_congr rfl fun e _ => ?_
  have := e.isLt
  rw [if_pos (by omega)]

theorem cut_out_apply {α : Type} (t : Fin cfg1.N) (X : S2048x128.Idx → α) (v : Fin 2048) (o : Fin 128) :
    (cfg1.win 5).cut (grid1.coords t) X (ix2 v o) = X (ix2 v o) := rfl

theorem read_out_apply (t : Fin cfg1.N) (G : S51200x128.Idx → EReal) (v : Fin 2048) (o : Fin 128) :
    ((cfg1.win 5).blk t).view.read (Elt Ideal) G (ix2 v o)
      = G (ix2 (⟨(t.val / 391) * 2048 + v.val, by have := nbo_lt t; omega⟩ : Fin 51200) o) := by
  rw [View.read_apply]
  show G _ = G _
  rw [out_emb t v o]

/-- The last point of a node block leaves that block of the padded result. -/
theorem flushed1_eq (c : Dev nD) (hiota : ∀ k : Fin 2048, (V c main_v9 : S2048x1.Idx → BitVec 32) (ix2 k (0 : Fin 1)) = BitVec.ofNat 32 k.val)
    (t : Fin cfg1.N) (hf : (cfg1.win 5).flush t = true) :
    (Fr.dat1 V c).flushed 5 t
      = ((cfg1.win 5).blk t).view.read (Elt Ideal) (Cert.Spec.O1 (V c main_v5) (V c main_v10) (V c main_arg4) (V c main_arg5)) := by
  have h390 : t.val % 391 = 390 := (flush1_5 t).mp hf
  show (cfg1.win 5).cut (grid1.coords t) ((Fr.dat1 V c).after 5 t) = _
  rw [Fr.after1_5, Fr.out1_last V c t h390]
  funext j
  obtain ⟨v, o, rfl⟩ : ∃ (v : Fin 2048) (o : Fin 128), j = ix2 v o := ⟨j 0, j 1, eq_ix2 j⟩
  refine (cut_out_apply t _ v o).trans ?_
  refine Eq.trans ?_ (read_out_apply t _ v o).symm
  refine (pay1_3_apply _ _ _ v o).trans ?_
  rw [O1_apply, blk_b]
  refine congrArg (· + _) ?_
  refine Finset.sum_congr rfl fun f _ => ?_
  rw [blk_W, scratch1_last V c hiota t h390 v f]

theorem mem_blk1 (t : Fin cfg1.N) (i : S51200x128.Idx) :
    i ∈ ((cfg1.win 5).blk t).view.set
      ↔ ∀ a : Fin 2, win1_5.index t a * S2048x128.size a ≤ (i a).val ∧ (i a).val < win1_5.index t a * S2048x128.size a + S2048x128.size a := by
  show i ∈ ((View.whole main_v11).slice (win1_5.rect t)).set ↔ _
  rw [View.set_slice_whole, Rect.mem_set_unit]
  exact Iff.rfl

/-- So the array ends at the padded result. -/
theorem arr1_final (c : Dev nD) (hiota : ∀ k : Fin 2048, (V c main_v9 : S2048x1.Idx → BitVec 32) (ix2 k (0 : Fin 1)) = BitVec.ofNat 32 k.val) :
    (Fr.dat1 V c).arrAt 5 cfg1.N = Cert.Spec.O1 (V c main_v5) (V c main_v10) (V c main_arg4) (V c main_arg5) :=
  (Fr.dat1 V c).arrAt_eq_of_cover 5 (Cert.Spec.O1 (V c main_v5) (V c main_v10) (V c main_arg4) (V c main_arg5))
    (fun t hf => flushed1_eq V c hiota t hf) fun i => by

      have hi0 : (i 0 : Nat) < 51200 := (i 0).isLt
      have hi1 : (i 1 : Nat) < 128 := (i 1).isLt
      have hN : cfg1.N = 9775 := N_1
      have ht : (i 0 : Nat) / 2048 * 391 + 390 < cfg1.N := by omega
      obtain ⟨-, -, -, -, -, -, -, -, -, -, -, h0, h1⟩ := grid1_facts ⟨(i 0 : Nat) / 2048 * 391 + 390, ht⟩
      have h0' : win1_5.index ⟨(i 0 : Nat) / 2048 * 391 + 390, ht⟩ (0 : Fin 2) = (i 0 : Nat) / 2048 := by
        rw [h0]; show ((i 0 : Nat) / 2048 * 391 + 390) / 391 = _; omega
      refine ⟨⟨(i 0 : Nat) / 2048 * 391 + 390, ht⟩,
        (flush1_5 _).mpr (by show ((i 0 : Nat) / 2048 * 391 + 390) % 391 = 390; omega), ?_⟩
      rw [mem_blk1]
      intro a
      match a with
      | ⟨0, _⟩ =>
        show win1_5.index ⟨(i 0 : Nat) / 2048 * 391 + 390, ht⟩ 0 * 2048 ≤ (i 0 : Nat)
          ∧ (i 0 : Nat) < win1_5.index ⟨(i 0 : Nat) / 2048 * 391 + 390, ht⟩ 0 * 2048 + 2048
        rw [h0']; omega
      | ⟨1, _⟩ =>
        show win1_5.index ⟨(i 0 : Nat) / 2048 * 391 + 390, ht⟩ 1 * 128 ≤ (i 1 : Nat)
          ∧ (i 1 : Nat) < win1_5.index ⟨(i 0 : Nat) / 2048 * 391 + 390, ht⟩ 1 * 128 + 128
        rw [h1]; omega

end Cert.KernelIdeal.Val

end
-- ==== Proof.Val.Bridge.lean ====
/- The padded stages restricted to the true nodes are the unpadded ones: a padding edge carries the word -1, which is no node, and a padding row of the table is never named by a source in range. -/
import proofs.«407643_j28157805593244_2_alg».proof.Proof.Val.Spec
import Mathlib.Algebra.BigOperators.Fin
import Mathlib.Algebra.BigOperators.Group.Finset.Basic

noncomputable section

open scoped BigOperators

namespace Cert.Spec

open Idealize.ShloMosaic Idealize.ShloMosaic.ValueIdx

/-- A sum over a longer range whose terms vanish past `M` is the sum over the first `M`. -/
theorem sum_pad {M N : ℕ} (hMN : M ≤ N) (g : Fin M → EReal) :
    (∑ e : Fin N, if h : e.val < M then g ⟨e.val, h⟩ else 0) = ∑ e : Fin M, g e := by
  refine (Fin.sum_univ_eq_sum_range (fun n => if h : n < M then g ⟨n, h⟩ else 0) N).trans ?_
  refine (Finset.sum_subset (Finset.range_mono hMN) (fun x _ hx => dif_neg (by simpa using hx))).symm.trans ?_
  refine (Fin.sum_univ_eq_sum_range (fun n => if h : n < M then g ⟨n, h⟩ else 0) M).symm.trans ?_
  exact Finset.sum_congr rfl fun e _ => dif_pos e.isLt

variable (nf : (⟨2, ![50000, 128]⟩ : Shape).Idx → EReal) (src dst : (⟨1, ![800000]⟩ : Shape).Idx → BitVec 32)
  (W : (⟨2, ![128, 128]⟩ : Shape).Idx → EReal) (b : (⟨1, ![128]⟩ : Shape).Idx → EReal)
  (srcp : (⟨2, ![800768, 1]⟩ : Shape).Idx → BitVec 32) (dstp : (⟨2, ![1, 800768]⟩ : Shape).Idx → BitVec 32)
  (nfp : (⟨2, ![51200, 128]⟩ : Shape).Idx → EReal)

/-- On a true node the padded aggregation is the aggregation: true edges agree term by term, padding edges add nothing. -/
theorem aggp_eq
    (hs : ∀ e : Fin 800768, srcp (ix2 e (0 : Fin 1)) = if h : e.val < 800000 then src (ix1 ⟨e.val, h⟩) else 4294967295#32)
    (hd : ∀ e : Fin 800768, dstp (ix2 (0 : Fin 1) e) = if h : e.val < 800000 then dst (ix1 ⟨e.val, h⟩) else 4294967295#32)
    (hn : ∀ (n : Fin 51200) (f : Fin 128), nfp (ix2 n f) = if h : n.val < 50000 then nf (ix2 ⟨n.val, h⟩ f) else 0)
    (hsrc : ∀ e : Fin 800000, (src (ix1 e)).toNat < 50000) (v : Fin 50000) (f : Fin 128) :
    aggp dstp (M0 srcp nfp) ⟨v.val, by omega⟩ f = agg nf src dst v f := by
  unfold aggp agg
  rw [← sum_pad (show 800000 ≤ 800768 by decide)]
  refine Finset.sum_congr rfl fun e _ => ?_
  by_cases h : e.val < 800000
  · rw [dif_pos h, hd e, dif_pos h]
    refine if_congr Iff.rfl ?_ rfl
    have hsv : srcp (ix2 e (0 : Fin 1)) = src (ix1 ⟨e.val, h⟩) := by rw [hs e, dif_pos h]
    have hlt := hsrc ⟨e.val, h⟩
    show (if h' : (srcp (ix2 (⟨e.val, _⟩ : Fin 800768) (0 : Fin 1))).toNat < 51200 then nfp (ix2 (⟨_, h'⟩ : Fin 51200) (⟨f.val, _⟩ : Fin 128)) else 0) = _
    have hlt' : (srcp (ix2 (⟨e.val, e.isLt⟩ : Fin 800768) (0 : Fin 1))).toNat < 50000 := by
      show (srcp (ix2 e (0 : Fin 1))).toNat < 50000
      rw [hsv]; exact hlt
    rw [dif_pos (Nat.lt_trans hlt' (by decide))]
    rw [hn, dif_pos hlt']
    unfold msg srcRow
    congr 1
    funext a
    match a with
    | ⟨0, _⟩ => exact Fin.ext (by show (srcp (ix2 e (0 : Fin 1))).toNat = min (src (ix1 ⟨e.val, h⟩)).toNat 49999; rw [hsv]; omega)
    | ⟨1, _⟩ => rfl
  · rw [dif_neg h, hd e, dif_neg h]
    refine if_neg fun heq => ?_
    have h1 : (BitVec.ofNat 32 v.val).toNat = v.val := by
      rw [BitVec.toNat_ofNat]; exact Nat.mod_eq_of_lt (Nat.lt_of_lt_of_le v.isLt (by decide))
    have h2 : (4294967295#32 : BitVec 32).toNat = 4294967295 := by decide
    have h3 := congrArg BitVec.toNat heq
    rw [h1, h2] at h3
    have hv := v.isLt
    omega

set_option maxRecDepth 8192 in

/-- Hence the padded result at a true node is the result there. -/
theorem O1_real
    (hs : ∀ e : Fin 800768, srcp (ix2 e (0 : Fin 1)) = if h : e.val < 800000 then src (ix1 ⟨e.val, h⟩) else 4294967295#32)
    (hd : ∀ e : Fin 800768, dstp (ix2 (0 : Fin 1) e) = if h : e.val < 800000 then dst (ix1 ⟨e.val, h⟩) else 4294967295#32)
    (hn : ∀ (n : Fin 51200) (f : Fin 128), nfp (ix2 n f) = if h : n.val < 50000 then nf (ix2 ⟨n.val, h⟩ f) else 0)
    (hsrc : ∀ e : Fin 800000, (src (ix1 e)).toNat < 50000) (v : Fin 50000) (o : Fin 128) :
    O1 dstp (M0 srcp nfp) W b (ix2 (⟨v.val, by omega⟩ : Fin 51200) o) = out nf src dst W b v o := by
  unfold O1 out
  show (∑ f : Fin 128, aggp dstp (M0 srcp nfp) (⟨v.val, by omega⟩ : Fin 51200) f * W (ix2 (⟨o.val, o.isLt⟩ : Fin 128) f))
      + b (ix1 (⟨o.val, o.isLt⟩ : Fin 128)) = (∑ f : Fin 128, agg nf src dst v f * W (ix2 o f)) + b (ix1 o)
  refine congrArg₂ (· + ·) (Finset.sum_congr rfl fun f _ => ?_) rfl
  rw [aggp_eq nf src dst srcp dstp nfp hs hd hn hsrc v f]

end Cert.Spec

end
-- ==== Proof.Val.Final.lean ====
/- The result array: the closing slice of region 1's array, which is the padded result over region 0's array, restricted to the true nodes. -/
import proofs.«407643_j28157805593244_2_alg».proof.Defs
import proofs.«407643_j28157805593244_2_alg».proof.Proof.Gen.Pre_finite_inputs
import proofs.«407643_j28157805593244_2_alg».proof.Proof.Fr.Run
import proofs.«407643_j28157805593244_2_alg».proof.Proof.Val.Host
import proofs.«407643_j28157805593244_2_alg».proof.Proof.Val.R0
import proofs.«407643_j28157805593244_2_alg».proof.Proof.Val.R1
import proofs.«407643_j28157805593244_2_alg».proof.Proof.Val.Bridge
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

theorem V10_v12 : Gen.V10 m (outs m) c (Proc.devRef .tc main_v12)
    = extractStridedSlice S50000x128 ![0, 0] (X1 m c) slices_S51200x128_S50000x128_0_0 := by
  show StableHlo.after hostOps2 (Gen.V9 m (outs m) c) (Proc.devRef .tc main_v12) = _
  rw [V9_val]
  after_results
  show extractStridedSlice S50000x128 ![0, 0] (Function.update (W8 m c) (Proc.devRef .tc main_v11) (X1 m c) (Proc.devRef .tc main_v11)) _ = _
  rw [Function.update_self]

theorem VR8_of (b : Ref sig .tc) (h : b ≠ main_v10) : VR8 m c b = VR7 m c b :=
  Function.update_of_ne (StableHlo.devRef_ne_of_ne h : (Proc.devRef .tc b : DevRef τ sig) ≠ Proc.devRef .tc main_v10) _ _

/-- The last valuation's result array is the common value of the arguments. -/
theorem result_eq
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    Gen.V10 m (outs m) c (Proc.devRef .tc main_v12)
      = Cert.Spec.G (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) := by
  rw [V10_v12]
  have h1 : X1 m c = Cert.Spec.O1 (VR8 m c main_v5) (VR8 m c main_v10) (VR8 m c main_arg4) (VR8 m c main_arg5) :=
    arr1_final (VR8 m) c fun k => by rw [VR8_of m c main_v9 (by decide)]; exact iota_col m c k
  have h0 : VR8 m c main_v10 = Cert.Spec.M0 (VR7 m c main_v3) (VR7 m c main_v1) :=
    (Function.update_self (Proc.devRef .tc main_v10 : DevRef τ sig) (X0 m c) (Gen.V7 m c)).trans (arr0_final (VR7 m) c (iota_row m c))
  rw [h1, h0, VR8_of m c main_v5 (by decide), VR8_of m c main_arg4 (by decide), VR8_of m c main_arg5 (by decide)]
  show extractStridedSlice S50000x128 ![0, 0] (Cert.Spec.O1 (Gen.V7 m c main_v5) (Cert.Spec.M0 (Gen.V7 m c main_v3) (Gen.V7 m c main_v1)) (Gen.V7 m c main_arg4) (Gen.V7 m c main_arg5)) _ = _
  rw [V7_arg4, V7_arg5]
  funext j
  obtain ⟨v, o, rfl⟩ : ∃ (v : Fin 50000) (o : Fin 128), j = ix2 v o := ⟨j 0, j 1, eq_ix2 j⟩
  rw [extractStridedSlice_apply _ _ _ (ix2 v o) (ix2 (⟨v.val, by omega⟩ : Fin 51200) o) (fun a => by
    match a with
    | ⟨0, _⟩ => show v.val = 0 + v.val; omega
    | ⟨1, _⟩ => show o.val = 0 + o.val; omega)]
  rw [Cert.Spec.G_apply]
  exact Cert.Spec.O1_real _ _ _ _ _ _ _ _ (srcp_apply m c) (dstp_apply m c) (nfp_apply m c)
    (fun e => src_range _ _ _ _ _ _ hpre e) v o

end Cert.KernelIdeal.Val

end
-- ==== Proof.lean ====
/- A gather of node features along the edges' sources, a sum over the edges' destinations and a linear layer: two tiled kernels
   computing through one-hot products, against direct indexing and a segment sum. Both sides are, at node `v` and feature `o`,
   `∑ f, (∑ e with dst e = v, nf (src e) f) · W o f + b o`. Only `0 + x = x`, `x + 0 = x`, `1 · x = x`, `0 · x = 0` and the
   commutative-monoid laws of the sum are used, so finiteness is never opened; the precondition's range of the source words is used:
   outside it the reference's indexing clamps where the one-hot product gives zero. -/
import proofs.«407643_j28157805593244_2_alg».proof.Defs
import proofs.«407643_j28157805593244_2_alg».proof.Proof.Gen.Kernel
import proofs.«407643_j28157805593244_2_alg».proof.Proof.Gen.KernelIdeal
import proofs.«407643_j28157805593244_2_alg».proof.Proof.Gen.ReferenceIdeal
import proofs.«407643_j28157805593244_2_alg».proof.Proof.Gen.Pre_finite_inputs
import proofs.«407643_j28157805593244_2_alg».proof.Proof.Ref.Imports
import proofs.«407643_j28157805593244_2_alg».proof.Proof.Ref.Value
import proofs.«407643_j28157805593244_2_alg».proof.Proof.Fr.Run
import proofs.«407643_j28157805593244_2_alg».proof.Proof.FrB.Run
import proofs.«407643_j28157805593244_2_alg».proof.Proof.Val.Final
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Fr.frame (F := Bits) m ρ

/-- The idealized program's frame is its run with the result dropped, -/
theorem frame_pi : Cert.frame_KernelIdeal := fun m ρ _ =>
  (θ_run Cert.KernelIdeal.defs _ _).mono (fun _ h c => (h c).2) (Cert.KernelIdeal.Fr.run_result (F := Ideal) m ρ)

/-- and so is the reference's. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the common value of the (agreeing) arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Val.result_eq m c (hpre c)), (h c).2⟩)
      (Cert.KernelIdeal.Fr.run_result (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.2.1, (hagree c).2.2.2.1, (hagree c).2.2.2.2.1, (hagree c).2.2.2.2.2]
    exact (Cert.ReferenceIdeal.Read.val_main_v13_eq _ _ _ _ _).trans
      (Cert.ReferenceIdeal.RefValue.ref_eq_G _ _ _ _ _ fun e => Cert.KernelIdeal.Val.src_range _ _ _ _ _ _ (hpre c) e)

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_p, Cert.Proof.frame_pi, Cert.Proof.frame_ri, Cert.Proof.preserves, Cert.Proof.algebraic⟩

end
